-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v491) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S12x8192x64 : Shape := ⟨3, ![12, 8192, 64]⟩
abbrev S12x8192x1 : Shape := ⟨3, ![12, 8192, 1]⟩
abbrev S12x4x1024 : Shape := ⟨3, ![12, 4, 1024]⟩
abbrev S12x1024x4 : Shape := ⟨3, ![12, 1024, 4]⟩
abbrev S2x1024 : Shape := ⟨2, ![2, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S12x8192x1 : S_.BroadcastsInDim S12x8192x1 (![] : Fin 0 → Fin S12x8192x1.rank)
  reducesTo_S12x8192x1_S_d0_1_2 : S12x8192x1.ReducesTo [0, 1, 2] S_
  bcast_S_S12x4x1024 : S_.BroadcastsInDim S12x4x1024 (![] : Fin 0 → Fin S12x4x1024.rank)
  reducesTo_S12x4x1024_S_d0_1_2 : S12x4x1024.ReducesTo [0, 1, 2] S_
  bcast_S_S12x1024x4 : S_.BroadcastsInDim S12x1024x4 (![] : Fin 0 → Fin S12x1024x4.rank)
  reducesTo_S12x1024x4_S_d0_1_2 : S12x1024x4.ReducesTo [0, 1, 2] S_
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_arg5 : FVec F S2x1024 .f32) (main_arg6 : FVec F S2x1024 .f32) (main_v13 : IVec S_ 1) (main_v16 : IVec S12x1024x4 1) : IVec S_ 1 :=
  let main_c_5 : IVec S_ 1 := constantI S_ 1 1#1
  let main_v17 : IVec S_ 1 := (fun x v => Host.reduce IntOp.andi x v reducesTo_S12x1024x4_S_d0_1_2 h_S_) main_v16 main_c_5
  let main_v18 : IVec S_ 1 := andi main_v13 main_v17
  let main_v19 : FVec F S2x1024 .f32 := Host.absf main_arg5
  let main_cst_6 : FVec F S_ .f32 := constant S_ .f32 0x7F800000#32
  let main_v20 : FVec F S2x1024 .f32 := broadcastInDim S2x1024 ![] bcast_S_S2x1024 main_cst_6
  let main_v21 : IVec S2x1024 1 := cmpf .olt main_v19 main_v20
  let main_c_7 : IVec S_ 1 := constantI S_ 1 1#1
  let main_v22 : IVec S_ 1 := (fun x v => Host.reduce IntOp.andi x v reducesTo_S2x1024_S_d0_1 h_S_) main_v21 main_c_7
  let main_v23 : IVec S_ 1 := andi main_v18 main_v22
  let main_v24 : FVec F S2x1024 .f32 := Host.absf main_arg6
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  main_v28

def fn {F : FTy → Type} [FloatOps F] (main_arg0 : FVec F S4096x1024 .f32) (main_arg1 : IVec S12x8192x64 32) (main_arg2 : FVec F S12x8192x1 .f32) (main_arg3 : FVec F S12x4x1024 .f32) (main_arg4 : FVec F S12x1024x4 .f32) (main_arg5 : FVec F S2x1024 .f32) (main_arg6 : FVec F S2x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S12x8192x1 .f32 := Host.absf main_arg2
  let main_cst_0 : FVec F S_ .f32 := constant S_ .f32 0x7F800000#32
  let main_v5 : FVec F S12x8192x1 .f32 := broadcastInDim S12x8192x1 ![] bcast_S_S12x8192x1 main_cst_0
  let main_v6 : IVec S12x8192x1 1 := cmpf .olt main_v4 main_v5
  let main_c_1 : IVec S_ 1 := constantI S_ 1 1#1
  let main_v7 : IVec S_ 1 := (fun x v => Host.reduce IntOp.andi x v reducesTo_S12x8192x1_S_d0_1_2 h_S_) main_v6 main_c_1
  let main_v8 : IVec S_ 1 := andi main_v3 main_v7
  let main_v9 : FVec F S12x4x1024 .f32 := Host.absf main_arg3
  let main_cst_2 : FVec F S_ .f32 := constant S_ .f32 0x7F800000#32
  let main_v10 : FVec F S12x4x1024 .f32 := broadcastInDim S12x4x1024 ![] bcast_S_S12x4x1024 main_cst_2
  let main_v11 : IVec S12x4x1024 1 := cmpf .olt main_v9 main_v10
  let main_c_3 : IVec S_ 1 := constantI S_ 1 1#1
  let main_v12 : IVec S_ 1 := (fun x v => Host.reduce IntOp.andi x v reducesTo_S12x4x1024_S_d0_1_2 h_S_) main_v11 main_c_3
  let main_v13 : IVec S_ 1 := andi main_v8 main_v12
  let main_v14 : FVec F S12x1024x4 .f32 := Host.absf main_arg4
  let main_cst_4 : FVec F S_ .f32 := constant S_ .f32 0x7F800000#32
  let main_v15 : FVec F S12x1024x4 .f32 := broadcastInDim S12x1024x4 ![] bcast_S_S12x1024x4 main_cst_4
  let main_v16 : IVec S12x1024x4 1 := cmpf .olt main_v14 main_v15
  fn_part1 (F := F) main_arg5 main_arg6 main_v13 main_v16
-- ==== Kernel.lean ====
abbrev S4096x1024 : Shape := ⟨2, ![4096, 1024]⟩
abbrev S12x8192x64 : Shape := ⟨3, ![12, 8192, 64]⟩
abbrev S12x8192x1 : Shape := ⟨3, ![12, 8192, 1]⟩
abbrev S12x4x1024 : Shape := ⟨3, ![12, 4, 1024]⟩
abbrev S12x1024x4 : Shape := ⟨3, ![12, 1024, 4]⟩
abbrev S2x1024 : Shape := ⟨2, ![2, 1024]⟩
abbrev S_ : Shape := ⟨0, ![]⟩
abbrev S12x8192x64x1 : Shape := ⟨4, ![12, 8192, 64, 1]⟩
abbrev S12x8192x64x2 : Shape := ⟨4, ![12, 8192, 64, 2]⟩
abbrev S12x8192x128 : Shape := ⟨3, ![12, 8192, 128]⟩
abbrev S12x1024x1024 : Shape := ⟨3, ![12, 1024, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 37
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S12x8192x64, .i32⟩
  | .hbm, ⟨2, _⟩ => ⟨S12x8192x1, .f32⟩
  | .hbm, ⟨3, _⟩ => ⟨S12x4x1024, .f32⟩
  | .hbm, ⟨4, _⟩ => ⟨S12x1024x4, .f32⟩
  | .hbm, ⟨5, _⟩ => ⟨S2x1024, .f32⟩
  | .hbm, ⟨6, _⟩ => ⟨S2x1024, .f32⟩
  | .hbm, ⟨7, _⟩ => ⟨S_, .i32⟩
  | .hbm, ⟨8, _⟩ => ⟨S12x8192x64, .i32⟩
  | .hbm, ⟨9, _⟩ => ⟨S12x8192x64, .i32⟩
  | .hbm, ⟨10, _⟩ => ⟨S_, .i32⟩
  | .hbm, ⟨11, _⟩ => ⟨S12x8192x64, .i32⟩
  | .hbm, ⟨12, _⟩ => ⟨S12x8192x64, .i32⟩
  | .hbm, ⟨13, _⟩ => ⟨S_, .i32⟩
  | .hbm, ⟨14, _⟩ => ⟨S12x8192x64, .i32⟩
  | .hbm, ⟨15, _⟩ => ⟨S12x8192x64, .i32⟩
  | .hbm, ⟨16, _⟩ => ⟨S12x8192x64x1, .i32⟩
  | .hbm, ⟨17, _⟩ => ⟨S12x8192x64x1, .i32⟩
  | .hbm, ⟨18, _⟩ => ⟨S12x8192x64x2, .i32⟩
  | .hbm, ⟨19, _⟩ => ⟨S12x8192x128, .i32⟩
  | .hbm, ⟨20, _⟩ => ⟨S12x8192x128, .f32⟩
  | .hbm, ⟨21, _⟩ => ⟨S_, .f32⟩
  | .hbm, ⟨22, _⟩ => ⟨S12x8192x128, .f32⟩
  | .hbm, ⟨23, _⟩ => ⟨S12x8192x128, .f32⟩
  | .hbm, ⟨24, _⟩ => ⟨S_, .f32⟩
  | .hbm, ⟨25, _⟩ => ⟨S12x8192x128, .f32⟩
  | .hbm, ⟨26, _⟩ => ⟨S12x8192x128, .f32⟩
  | .hbm, ⟨27, _⟩ => ⟨S_, .f32⟩
  | .hbm, ⟨28, _⟩ => ⟨S12x8192x128, .f32⟩
  | .hbm, ⟨29, _⟩ => ⟨S12x8192x128, .f32⟩
  | .hbm, ⟨30, _⟩ => ⟨S12x8192x128, .f32⟩
  | .hbm, ⟨31, _⟩ => ⟨S12x8192x128, .f32⟩
  | .hbm, ⟨32, _⟩ => ⟨S12x1024x1024, .f32⟩
  | .hbm, ⟨33, _⟩ => ⟨S12x1024x1024, .f32⟩
  | .hbm, ⟨34, _⟩ => ⟨S12x1024x1024, .f32⟩
  | .hbm, ⟨35, _⟩ => ⟨S12x1024x1024, .bf16⟩
  | .hbm, ⟨36, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S12x1024x1024, .bf16⟩
  | .local _ .vmem, ⟨3, _⟩ => ⟨S2x1024, .f32⟩
  | .local _ .vmem, ⟨4, _⟩ => ⟨S2x1024, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S12x8192x64 : S_.BroadcastsInDim S12x8192x64 (![] : Fin 0 → Fin S12x8192x64.rank)
  bcast_S12x8192x64_S12x8192x64x1_0_1_2 : S12x8192x64.BroadcastsInDim S12x8192x64x1 (![0, 1, 2] : Fin 3 → Fin S12x8192x64x1.rank)
  concatenates_S12x8192x64x1_S12x8192x64x1_S12x8192x64x2_d3 : Shape.Concatenates [S12x8192x64x1, S12x8192x64x1] S12x8192x64x2 3
  shapeCasts_S12x8192x64x2_S12x8192x128 : S12x8192x64x2.ShapeCasts S12x8192x128
  bcast_S_S12x8192x128 : S_.BroadcastsInDim S12x8192x128 (![] : Fin 0 → Fin S12x8192x128.rank)
  bcast_S12x8192x1_S12x8192x128_0_1_2 : S12x8192x1.BroadcastsInDim S12x8192x128 (![0, 1, 2] : Fin 3 → Fin S12x8192x128.rank)
  shapeCasts_S12x8192x128_S12x1024x1024 : S12x8192x128.ShapeCasts S12x1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S12x1024x1024_S1x1024x1024_0_0_0 : ∀ a, (![0, 0, 0] : Fin 3 → Nat) a + S1x1024x1024.size a ≤ S12x1024x1024.size a
  h_S1x1024x1024 : 0 < S1x1024x1024.numel
  shapeCasts_S1x1024x1024_S1024x1024 : S1x1024x1024.ShapeCasts S1024x1024
  inb_S12x1024x1024_S1x1024x1024_1_0_0 : ∀ a, (![1, 0, 0] : Fin 3 → Nat) a + S1x1024x1024.size a ≤ S12x1024x1024.size a
  inb_S12x1024x1024_S1x1024x1024_2_0_0 : ∀ a, (![2, 0, 0] : Fin 3 → Nat) a + S1x1024x1024.size a ≤ S12x1024x1024.size a
  inb_S2x1024_S1x1024_0_0 : ∀ a, (![0, 0] : Fin 2 → Nat) a + S1x1024.size a ≤ S2x1024.size a
  h_S1x1024 : 0 < S1x1024.numel
  reduces_S256x1024_S256 : S256x1024.Reduces [1] S256
  shapeCasts_S256_S256x1 : S256.ShapeCasts S256x1
  broadcasts_S256x1_S256x1024 : S256x1.Broadcasts S256x1024
  broadcasts_S1x1024_S256x1024 : S1x1024.Broadcasts S256x1024
  inb_S12x1024x1024_S1x1024x1024_3_0_0 : ∀ a, (![3, 0, 0] : Fin 3 → Nat) a + S1x1024x1024.size a ≤ S12x1024x1024.size a
  inb_S12x1024x1024_S1x1024x1024_4_0_0 : ∀ a, (![4, 0, 0] : Fin 3 → Nat) a + S1x1024x1024.size a ≤ S12x1024x1024.size a
  inb_S12x1024x1024_S1x1024x1024_5_0_0 : ∀ a, (![5, 0, 0] : Fin 3 → Nat) a + S1x1024x1024.size a ≤ S12x1024x1024.size a
  inb_S12x1024x1024_S1x1024x1024_6_0_0 : ∀ a, (![6, 0, 0] : Fin 3 → Nat) a + S1x1024x1024.size a ≤ S12x1024x1024.size a
  inb_S12x1024x1024_S1x1024x1024_7_0_0 : ∀ a, (![7, 0, 0] : Fin 3 → Nat) a + S1x1024x1024.size a ≤ S12x1024x1024.size a
  inb_S12x1024x1024_S1x1024x1024_8_0_0 : ∀ a, (![8, 0, 0] : Fin 3 → Nat) a + S1x1024x1024.size a ≤ S12x1024x1024.size a
  inb_S2x1024_S1x1024_1_0 : ∀ a, (![1, 0] : Fin 2 → Nat) a + S1x1024.size a ≤ S2x1024.size a
  inb_S12x1024x1024_S1x1024x1024_9_0_0 : ∀ a, (![9, 0, 0] : Fin 3 → Nat) a + S1x1024x1024.size a ≤ S12x1024x1024.size a
  inb_S12x1024x1024_S1x1024x1024_10_0_0 : ∀ a, (![10, 0, 0] : Fin 3 → Nat) a + S1x1024x1024.size a ≤ S12x1024x1024.size a
  inb_S12x1024x1024_S1x1024x1024_11_0_0 : ∀ a, (![11, 0, 0] : Fin 3 → Nat) a + S1x1024x1024.size a ≤ S12x1024x1024.size a
  dot_S12x1024x4_S12x4x1024_S12x1024x1024_2_1_1_2_0_0_wf : DotDims.WF S12x1024x4 S12x4x1024 S12x1024x1024 [2] [1] [1] [2] [0] [0]
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x1024x1024.size a ≤ S12x1024x1024.size a
  hwx0_1 : ∀ i : grid0.Coords, EltTy.bits .bf16 = 32 ∨ (Rect.block (s := S12x1024x1024) S12x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1024.size a ≤ S2x1024.size a
  hwx0_3 : ∀ i : grid0.Coords, EltTy.bits .f32 = 32 ∨ (Rect.block (s := S2x1024) S2x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)

variable [Facts₀]

def dot_S12x1024x4_S12x4x1024_S12x1024x1024_2_1_1_2_0_0 : DotDims S12x1024x4 S12x4x1024 S12x1024x1024 where
  lhsContracting := [2]
  rhsContracting := [1]
  lhsNonContracting := [1]
  rhsNonContracting := [2]
  lhsBatch := [0]
  rhsBatch := [0]
  wf := dot_S12x1024x4_S12x4x1024_S12x1024x1024_2_1_1_2_0_0_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S12x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S12x8192x64 : Shape := ⟨3, ![12, 8192, 64]⟩
abbrev S12x8192x1 : Shape := ⟨3, ![12, 8192, 1]⟩
abbrev S12x4x1024 : Shape := ⟨3, ![12, 4, 1024]⟩
abbrev S12x1024x4 : Shape := ⟨3, ![12, 1024, 4]⟩
abbrev S2x1024 : Shape := ⟨2, ![2, 1024]⟩
abbrev S3x8192x64 : Shape := ⟨3, ![3, 8192, 64]⟩
abbrev S3x8192x1 : Shape := ⟨3, ![3, 8192, 1]⟩
abbrev S3x4x1024 : Shape := ⟨3, ![3, 4, 1024]⟩
abbrev S3x1024x4 : Shape := ⟨3, ![3, 1024, 4]⟩
abbrev S1x8192x64 : Shape := ⟨3, ![1, 8192, 64]⟩
abbrev S8192x64 : Shape := ⟨2, ![8192, 64]⟩
abbrev S1x8192x1 : Shape := ⟨3, ![1, 8192, 1]⟩
abbrev S8192x1 : Shape := ⟨2, ![8192, 1]⟩
abbrev S1x4x1024 : Shape := ⟨3, ![1, 4, 1024]⟩
abbrev S4x1024 : Shape := ⟨2, ![4, 1024]⟩
abbrev S1x1024x4 : Shape := ⟨3, ![1, 1024, 4]⟩
abbrev S1024x4 : Shape := ⟨2, ![1024, 4]⟩
abbrev S_ : Shape := ⟨0, ![]⟩
abbrev S8192x64x1 : Shape := ⟨3, ![8192, 64, 1]⟩
abbrev S8192x64x2 : Shape := ⟨3, ![8192, 64, 2]⟩
abbrev S8192x128 : Shape := ⟨2, ![8192, 128]⟩
abbrev S1024x1024 : Shape := ⟨2, ![1024, 1024]⟩
abbrev S4096x4 : Shape := ⟨2, ![4096, 4]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 639
  | .vmem => 0
  | .smem => 0
  | _ => 0

abbrev hbmTy0_0 (i : Nat) : BufTy := match i % 128 with
  | 0 => ⟨S4096x1024, .f32⟩
  | 1 => ⟨S12x8192x64, .i32⟩
  | 2 => ⟨S12x8192x1, .f32⟩
  | 3 => ⟨S12x4x1024, .f32⟩
  | 4 => ⟨S12x1024x4, .f32⟩
  | 5 => ⟨S2x1024, .f32⟩
  | 6 => ⟨S2x1024, .f32⟩
  | 7 => ⟨S3x8192x64, .i32⟩
  | 8 => ⟨S3x8192x1, .f32⟩
  | 9 => ⟨S3x4x1024, .f32⟩
  | 10 => ⟨S3x1024x4, .f32⟩
  | 11 => ⟨S1x8192x64, .i32⟩
  | 12 => ⟨S8192x64, .i32⟩
  | 13 => ⟨S1x8192x1, .f32⟩
  | 14 => ⟨S8192x1, .f32⟩
  | 15 => ⟨S1x4x1024, .f32⟩
  | 16 => ⟨S4x1024, .f32⟩
  | 17 => ⟨S1x1024x4, .f32⟩
  | 18 => ⟨S1024x4, .f32⟩
  | 19 => ⟨S_, .i32⟩
  | 20 => ⟨S8192x64, .i32⟩
  | 21 => ⟨S8192x64, .i32⟩
  | 22 => ⟨S_, .i32⟩
  | 23 => ⟨S8192x64, .i32⟩
  | 24 => ⟨S8192x64, .i32⟩
  | 25 => ⟨S_, .i32⟩
  | 26 => ⟨S8192x64, .i32⟩
  | 27 => ⟨S8192x64, .i32⟩
  | 28 => ⟨S8192x64x1, .i32⟩
  | 29 => ⟨S8192x64x1, .i32⟩
  | 30 => ⟨S8192x64x2, .i32⟩
  | 31 => ⟨S8192x128, .i32⟩
  | 32 => ⟨S8192x128, .f32⟩
  | 33 => ⟨S_, .f32⟩
  | 34 => ⟨S8192x128, .f32⟩
  | 35 => ⟨S8192x128, .f32⟩
  | 36 => ⟨S_, .f32⟩
  | 37 => ⟨S8192x128, .f32⟩
  | 38 => ⟨S8192x128, .f32⟩
  | 39 => ⟨S_, .f32⟩
  | 40 => ⟨S8192x128, .f32⟩
  | 41 => ⟨S8192x128, .f32⟩
  | 42 => ⟨S8192x128, .f32⟩
  | 43 => ⟨S8192x128, .f32⟩
  | 44 => ⟨S1024x1024, .f32⟩
  | 45 => ⟨S1024x1024, .f32⟩
  | 46 => ⟨S4096x1024, .f32⟩
  | 47 => ⟨S1024x4, .f32⟩
  | 48 => ⟨S4096x4, .f32⟩
  | 49 => ⟨S4x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S1x8192x64, .i32⟩
  | 56 => ⟨S8192x64, .i32⟩
  | 57 => ⟨S1x8192x1, .f32⟩
  | 58 => ⟨S8192x1, .f32⟩
  | 59 => ⟨S1x4x1024, .f32⟩
  | 60 => ⟨S4x1024, .f32⟩
  | 61 => ⟨S1x1024x4, .f32⟩
  | 62 => ⟨S1024x4, .f32⟩
  | 63 => ⟨S_, .i32⟩
  | 64 => ⟨S8192x64, .i32⟩
  | 65 => ⟨S8192x64, .i32⟩
  | 66 => ⟨S_, .i32⟩
  | 67 => ⟨S8192x64, .i32⟩
  | 68 => ⟨S8192x64, .i32⟩
  | 69 => ⟨S_, .i32⟩
  | 70 => ⟨S8192x64, .i32⟩
  | 71 => ⟨S8192x64, .i32⟩
  | 72 => ⟨S8192x64x1, .i32⟩
  | 73 => ⟨S8192x64x1, .i32⟩
  | 74 => ⟨S8192x64x2, .i32⟩
  | 75 => ⟨S8192x128, .i32⟩
  | 76 => ⟨S8192x128, .f32⟩
  | 77 => ⟨S_, .f32⟩
  | 78 => ⟨S8192x128, .f32⟩
  | 79 => ⟨S8192x128, .f32⟩
  | 80 => ⟨S_, .f32⟩
  | 81 => ⟨S8192x128, .f32⟩
  | 82 => ⟨S8192x128, .f32⟩
  | 83 => ⟨S_, .f32⟩
  | 84 => ⟨S8192x128, .f32⟩
  | 85 => ⟨S8192x128, .f32⟩
  | 86 => ⟨S8192x128, .f32⟩
  | 87 => ⟨S8192x128, .f32⟩
  | 88 => ⟨S1024x1024, .f32⟩
  | 89 => ⟨S1024x1024, .f32⟩
  | 90 => ⟨S4096x1024, .f32⟩
  | 91 => ⟨S1024x4, .f32⟩
  | 92 => ⟨S4096x4, .f32⟩
  | 93 => ⟨S4x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S1x8192x64, .i32⟩
  | 100 => ⟨S8192x64, .i32⟩
  | 101 => ⟨S1x8192x1, .f32⟩
  | 102 => ⟨S8192x1, .f32⟩
  | 103 => ⟨S1x4x1024, .f32⟩
  | 104 => ⟨S4x1024, .f32⟩
  | 105 => ⟨S1x1024x4, .f32⟩
  | 106 => ⟨S1024x4, .f32⟩
  | 107 => ⟨S_, .i32⟩
  | 108 => ⟨S8192x64, .i32⟩
  | 109 => ⟨S8192x64, .i32⟩
  | 110 => ⟨S_, .i32⟩
  | 111 => ⟨S8192x64, .i32⟩
  | 112 => ⟨S8192x64, .i32⟩
  | 113 => ⟨S_, .i32⟩
  | 114 => ⟨S8192x64, .i32⟩
  | 115 => ⟨S8192x64, .i32⟩
  | 116 => ⟨S8192x64x1, .i32⟩
  | 117 => ⟨S8192x64x1, .i32⟩
  | 118 => ⟨S8192x64x2, .i32⟩
  | 119 => ⟨S8192x128, .i32⟩
  | 120 => ⟨S8192x128, .f32⟩
  | 121 => ⟨S_, .f32⟩
  | 122 => ⟨S8192x128, .f32⟩
  | 123 => ⟨S8192x128, .f32⟩
  | 124 => ⟨S_, .f32⟩
  | 125 => ⟨S8192x128, .f32⟩
  | 126 => ⟨S8192x128, .f32⟩
  | 127 => ⟨S_, .f32⟩
  | _ => ⟨S4096x1024, .f32⟩

abbrev hbmTy0_1 (i : Nat) : BufTy := match i % 128 with
  | 0 => ⟨S8192x128, .f32⟩
  | 1 => ⟨S8192x128, .f32⟩
  | 2 => ⟨S8192x128, .f32⟩
  | 3 => ⟨S8192x128, .f32⟩
  | 4 => ⟨S1024x1024, .f32⟩
  | 5 => ⟨S1024x1024, .f32⟩
  | 6 => ⟨S4096x1024, .f32⟩
  | 7 => ⟨S1024x4, .f32⟩
  | 8 => ⟨S4096x4, .f32⟩
  | 9 => ⟨S4x1024, .f32⟩
  | 10 => ⟨S4096x1024, .f32⟩
  | 11 => ⟨S4096x1024, .f32⟩
  | 12 => ⟨S4096x1024, .f32⟩
  | 13 => ⟨S1x1024, .f32⟩
  | 14 => ⟨S1024, .f32⟩
  | 15 => ⟨S1x1024, .f32⟩
  | 16 => ⟨S1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .i32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S_, .f32⟩
  | 34 => ⟨S_, .f32⟩
  | 35 => ⟨S_, .f32⟩
  | 36 => ⟨S_, .f32⟩
  | 37 => ⟨S4096, .f32⟩
  | 38 => ⟨S4096x1, .f32⟩
  | 39 => ⟨S4096x1, .f32⟩
  | 40 => ⟨S4096x1, .f32⟩
  | 41 => ⟨S_, .f32⟩
  | 42 => ⟨S_, .i1⟩
  | 43 => ⟨S_, .f32⟩
  | 44 => ⟨S_, .f32⟩
  | 45 => ⟨S4096x1, .f32⟩
  | 46 => ⟨S4096x1, .f32⟩
  | 47 => ⟨S4096x1024, .f32⟩
  | 48 => ⟨S4096x1024, .f32⟩
  | 49 => ⟨S_, .f32⟩
  | 50 => ⟨S4096x1, .f32⟩
  | 51 => ⟨S4096x1, .f32⟩
  | 52 => ⟨S4096x1, .f32⟩
  | 53 => ⟨S4096x1024, .f32⟩
  | 54 => ⟨S4096x1024, .f32⟩
  | 55 => ⟨S1x1024, .f32⟩
  | 56 => ⟨S4096x1024, .f32⟩
  | 57 => ⟨S4096x1024, .f32⟩
  | 58 => ⟨S1x1024, .f32⟩
  | 59 => ⟨S4096x1024, .f32⟩
  | 60 => ⟨S4096x1024, .f32⟩
  | 61 => ⟨S3x8192x64, .i32⟩
  | 62 => ⟨S3x8192x1, .f32⟩
  | 63 => ⟨S3x4x1024, .f32⟩
  | 64 => ⟨S3x1024x4, .f32⟩
  | 65 => ⟨S1x8192x64, .i32⟩
  | 66 => ⟨S8192x64, .i32⟩
  | 67 => ⟨S1x8192x1, .f32⟩
  | 68 => ⟨S8192x1, .f32⟩
  | 69 => ⟨S1x4x1024, .f32⟩
  | 70 => ⟨S4x1024, .f32⟩
  | 71 => ⟨S1x1024x4, .f32⟩
  | 72 => ⟨S1024x4, .f32⟩
  | 73 => ⟨S_, .i32⟩
  | 74 => ⟨S8192x64, .i32⟩
  | 75 => ⟨S8192x64, .i32⟩
  | 76 => ⟨S_, .i32⟩
  | 77 => ⟨S8192x64, .i32⟩
  | 78 => ⟨S8192x64, .i32⟩
  | 79 => ⟨S_, .i32⟩
  | 80 => ⟨S8192x64, .i32⟩
  | 81 => ⟨S8192x64, .i32⟩
  | 82 => ⟨S8192x64x1, .i32⟩
  | 83 => ⟨S8192x64x1, .i32⟩
  | 84 => ⟨S8192x64x2, .i32⟩
  | 85 => ⟨S8192x128, .i32⟩
  | 86 => ⟨S8192x128, .f32⟩
  | 87 => ⟨S_, .f32⟩
  | 88 => ⟨S8192x128, .f32⟩
  | 89 => ⟨S8192x128, .f32⟩
  | 90 => ⟨S_, .f32⟩
  | 91 => ⟨S8192x128, .f32⟩
  | 92 => ⟨S8192x128, .f32⟩
  | 93 => ⟨S_, .f32⟩
  | 94 => ⟨S8192x128, .f32⟩
  | 95 => ⟨S8192x128, .f32⟩
  | 96 => ⟨S8192x128, .f32⟩
  | 97 => ⟨S8192x128, .f32⟩
  | 98 => ⟨S1024x1024, .f32⟩
  | 99 => ⟨S1024x1024, .f32⟩
  | 100 => ⟨S4096x1024, .f32⟩
  | 101 => ⟨S1024x4, .f32⟩
  | 102 => ⟨S4096x4, .f32⟩
  | 103 => ⟨S4x1024, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S1x8192x64, .i32⟩
  | 110 => ⟨S8192x64, .i32⟩
  | 111 => ⟨S1x8192x1, .f32⟩
  | 112 => ⟨S8192x1, .f32⟩
  | 113 => ⟨S1x4x1024, .f32⟩
  | 114 => ⟨S4x1024, .f32⟩
  | 115 => ⟨S1x1024x4, .f32⟩
  | 116 => ⟨S1024x4, .f32⟩
  | 117 => ⟨S_, .i32⟩
  | 118 => ⟨S8192x64, .i32⟩
  | 119 => ⟨S8192x64, .i32⟩
  | 120 => ⟨S_, .i32⟩
  | 121 => ⟨S8192x64, .i32⟩
  | 122 => ⟨S8192x64, .i32⟩
  | 123 => ⟨S_, .i32⟩
  | 124 => ⟨S8192x64, .i32⟩
  | 125 => ⟨S8192x64, .i32⟩
  | 126 => ⟨S8192x64x1, .i32⟩
  | 127 => ⟨S8192x64x1, .i32⟩
  | _ => ⟨S4096x1024, .f32⟩

abbrev hbmTy0_2 (i : Nat) : BufTy := match i % 128 with
  | 0 => ⟨S8192x64x2, .i32⟩
  | 1 => ⟨S8192x128, .i32⟩
  | 2 => ⟨S8192x128, .f32⟩
  | 3 => ⟨S_, .f32⟩
  | 4 => ⟨S8192x128, .f32⟩
  | 5 => ⟨S8192x128, .f32⟩
  | 6 => ⟨S_, .f32⟩
  | 7 => ⟨S8192x128, .f32⟩
  | 8 => ⟨S8192x128, .f32⟩
  | 9 => ⟨S_, .f32⟩
  | 10 => ⟨S8192x128, .f32⟩
  | 11 => ⟨S8192x128, .f32⟩
  | 12 => ⟨S8192x128, .f32⟩
  | 13 => ⟨S8192x128, .f32⟩
  | 14 => ⟨S1024x1024, .f32⟩
  | 15 => ⟨S1024x1024, .f32⟩
  | 16 => ⟨S4096x1024, .f32⟩
  | 17 => ⟨S1024x4, .f32⟩
  | 18 => ⟨S4096x4, .f32⟩
  | 19 => ⟨S4x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S1x8192x64, .i32⟩
  | 26 => ⟨S8192x64, .i32⟩
  | 27 => ⟨S1x8192x1, .f32⟩
  | 28 => ⟨S8192x1, .f32⟩
  | 29 => ⟨S1x4x1024, .f32⟩
  | 30 => ⟨S4x1024, .f32⟩
  | 31 => ⟨S1x1024x4, .f32⟩
  | 32 => ⟨S1024x4, .f32⟩
  | 33 => ⟨S_, .i32⟩
  | 34 => ⟨S8192x64, .i32⟩
  | 35 => ⟨S8192x64, .i32⟩
  | 36 => ⟨S_, .i32⟩
  | 37 => ⟨S8192x64, .i32⟩
  | 38 => ⟨S8192x64, .i32⟩
  | 39 => ⟨S_, .i32⟩
  | 40 => ⟨S8192x64, .i32⟩
  | 41 => ⟨S8192x64, .i32⟩
  | 42 => ⟨S8192x64x1, .i32⟩
  | 43 => ⟨S8192x64x1, .i32⟩
  | 44 => ⟨S8192x64x2, .i32⟩
  | 45 => ⟨S8192x128, .i32⟩
  | 46 => ⟨S8192x128, .f32⟩
  | 47 => ⟨S_, .f32⟩
  | 48 => ⟨S8192x128, .f32⟩
  | 49 => ⟨S8192x128, .f32⟩
  | 50 => ⟨S_, .f32⟩
  | 51 => ⟨S8192x128, .f32⟩
  | 52 => ⟨S8192x128, .f32⟩
  | 53 => ⟨S_, .f32⟩
  | 54 => ⟨S8192x128, .f32⟩
  | 55 => ⟨S8192x128, .f32⟩
  | 56 => ⟨S8192x128, .f32⟩
  | 57 => ⟨S8192x128, .f32⟩
  | 58 => ⟨S1024x1024, .f32⟩
  | 59 => ⟨S1024x1024, .f32⟩
  | 60 => ⟨S4096x1024, .f32⟩
  | 61 => ⟨S1024x4, .f32⟩
  | 62 => ⟨S4096x4, .f32⟩
  | 63 => ⟨S4x1024, .f32⟩
  | 64 => ⟨S4096x1024, .f32⟩
  | 65 => ⟨S4096x1024, .f32⟩
  | 66 => ⟨S4096x1024, .f32⟩
  | 67 => ⟨S3x8192x64, .i32⟩
  | 68 => ⟨S3x8192x1, .f32⟩
  | 69 => ⟨S3x4x1024, .f32⟩
  | 70 => ⟨S3x1024x4, .f32⟩
  | 71 => ⟨S1x8192x64, .i32⟩
  | 72 => ⟨S8192x64, .i32⟩
  | 73 => ⟨S1x8192x1, .f32⟩
  | 74 => ⟨S8192x1, .f32⟩
  | 75 => ⟨S1x4x1024, .f32⟩
  | 76 => ⟨S4x1024, .f32⟩
  | 77 => ⟨S1x1024x4, .f32⟩
  | 78 => ⟨S1024x4, .f32⟩
  | 79 => ⟨S_, .i32⟩
  | 80 => ⟨S8192x64, .i32⟩
  | 81 => ⟨S8192x64, .i32⟩
  | 82 => ⟨S_, .i32⟩
  | 83 => ⟨S8192x64, .i32⟩
  | 84 => ⟨S8192x64, .i32⟩
  | 85 => ⟨S_, .i32⟩
  | 86 => ⟨S8192x64, .i32⟩
  | 87 => ⟨S8192x64, .i32⟩
  | 88 => ⟨S8192x64x1, .i32⟩
  | 89 => ⟨S8192x64x1, .i32⟩
  | 90 => ⟨S8192x64x2, .i32⟩
  | 91 => ⟨S8192x128, .i32⟩
  | 92 => ⟨S8192x128, .f32⟩
  | 93 => ⟨S_, .f32⟩
  | 94 => ⟨S8192x128, .f32⟩
  | 95 => ⟨S8192x128, .f32⟩
  | 96 => ⟨S_, .f32⟩
  | 97 => ⟨S8192x128, .f32⟩
  | 98 => ⟨S8192x128, .f32⟩
  | 99 => ⟨S_, .f32⟩
  | 100 => ⟨S8192x128, .f32⟩
  | 101 => ⟨S8192x128, .f32⟩
  | 102 => ⟨S8192x128, .f32⟩
  | 103 => ⟨S8192x128, .f32⟩
  | 104 => ⟨S1024x1024, .f32⟩
  | 105 => ⟨S1024x1024, .f32⟩
  | 106 => ⟨S4096x1024, .f32⟩
  | 107 => ⟨S1024x4, .f32⟩
  | 108 => ⟨S4096x4, .f32⟩
  | 109 => ⟨S4x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S1x8192x64, .i32⟩
  | 116 => ⟨S8192x64, .i32⟩
  | 117 => ⟨S1x8192x1, .f32⟩
  | 118 => ⟨S8192x1, .f32⟩
  | 119 => ⟨S1x4x1024, .f32⟩
  | 120 => ⟨S4x1024, .f32⟩
  | 121 => ⟨S1x1024x4, .f32⟩
  | 122 => ⟨S1024x4, .f32⟩
  | 123 => ⟨S_, .i32⟩
  | 124 => ⟨S8192x64, .i32⟩
  | 125 => ⟨S8192x64, .i32⟩
  | 126 => ⟨S_, .i32⟩
  | 127 => ⟨S8192x64, .i32⟩
  | _ => ⟨S4096x1024, .f32⟩

abbrev hbmTy0_3 (i : Nat) : BufTy := match i % 128 with
  | 0 => ⟨S8192x64, .i32⟩
  | 1 => ⟨S_, .i32⟩
  | 2 => ⟨S8192x64, .i32⟩
  | 3 => ⟨S8192x64, .i32⟩
  | 4 => ⟨S8192x64x1, .i32⟩
  | 5 => ⟨S8192x64x1, .i32⟩
  | 6 => ⟨S8192x64x2, .i32⟩
  | 7 => ⟨S8192x128, .i32⟩
  | 8 => ⟨S8192x128, .f32⟩
  | 9 => ⟨S_, .f32⟩
  | 10 => ⟨S8192x128, .f32⟩
  | 11 => ⟨S8192x128, .f32⟩
  | 12 => ⟨S_, .f32⟩
  | 13 => ⟨S8192x128, .f32⟩
  | 14 => ⟨S8192x128, .f32⟩
  | 15 => ⟨S_, .f32⟩
  | 16 => ⟨S8192x128, .f32⟩
  | 17 => ⟨S8192x128, .f32⟩
  | 18 => ⟨S8192x128, .f32⟩
  | 19 => ⟨S8192x128, .f32⟩
  | 20 => ⟨S1024x1024, .f32⟩
  | 21 => ⟨S1024x1024, .f32⟩
  | 22 => ⟨S4096x1024, .f32⟩
  | 23 => ⟨S1024x4, .f32⟩
  | 24 => ⟨S4096x4, .f32⟩
  | 25 => ⟨S4x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S1x8192x64, .i32⟩
  | 32 => ⟨S8192x64, .i32⟩
  | 33 => ⟨S1x8192x1, .f32⟩
  | 34 => ⟨S8192x1, .f32⟩
  | 35 => ⟨S1x4x1024, .f32⟩
  | 36 => ⟨S4x1024, .f32⟩
  | 37 => ⟨S1x1024x4, .f32⟩
  | 38 => ⟨S1024x4, .f32⟩
  | 39 => ⟨S_, .i32⟩
  | 40 => ⟨S8192x64, .i32⟩
  | 41 => ⟨S8192x64, .i32⟩
  | 42 => ⟨S_, .i32⟩
  | 43 => ⟨S8192x64, .i32⟩
  | 44 => ⟨S8192x64, .i32⟩
  | 45 => ⟨S_, .i32⟩
  | 46 => ⟨S8192x64, .i32⟩
  | 47 => ⟨S8192x64, .i32⟩
  | 48 => ⟨S8192x64x1, .i32⟩
  | 49 => ⟨S8192x64x1, .i32⟩
  | 50 => ⟨S8192x64x2, .i32⟩
  | 51 => ⟨S8192x128, .i32⟩
  | 52 => ⟨S8192x128, .f32⟩
  | 53 => ⟨S_, .f32⟩
  | 54 => ⟨S8192x128, .f32⟩
  | 55 => ⟨S8192x128, .f32⟩
  | 56 => ⟨S_, .f32⟩
  | 57 => ⟨S8192x128, .f32⟩
  | 58 => ⟨S8192x128, .f32⟩
  | 59 => ⟨S_, .f32⟩
  | 60 => ⟨S8192x128, .f32⟩
  | 61 => ⟨S8192x128, .f32⟩
  | 62 => ⟨S8192x128, .f32⟩
  | 63 => ⟨S8192x128, .f32⟩
  | 64 => ⟨S1024x1024, .f32⟩
  | 65 => ⟨S1024x1024, .f32⟩
  | 66 => ⟨S4096x1024, .f32⟩
  | 67 => ⟨S1024x4, .f32⟩
  | 68 => ⟨S4096x4, .f32⟩
  | 69 => ⟨S4x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S1x1024, .f32⟩
  | 76 => ⟨S1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .i32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S4096x1024, .f32⟩
  | 91 => ⟨S4096x1024, .f32⟩
  | 92 => ⟨S4096x1024, .f32⟩
  | 93 => ⟨S_, .f32⟩
  | 94 => ⟨S_, .f32⟩
  | 95 => ⟨S_, .f32⟩
  | 96 => ⟨S_, .f32⟩
  | 97 => ⟨S4096, .f32⟩
  | 98 => ⟨S4096x1, .f32⟩
  | 99 => ⟨S4096x1, .f32⟩
  | 100 => ⟨S4096x1, .f32⟩
  | 101 => ⟨S_, .f32⟩
  | 102 => ⟨S_, .i1⟩
  | 103 => ⟨S_, .f32⟩
  | 104 => ⟨S_, .f32⟩
  | 105 => ⟨S4096x1, .f32⟩
  | 106 => ⟨S4096x1, .f32⟩
  | 107 => ⟨S4096x1024, .f32⟩
  | 108 => ⟨S4096x1024, .f32⟩
  | 109 => ⟨S_, .f32⟩
  | 110 => ⟨S4096x1, .f32⟩
  | 111 => ⟨S4096x1, .f32⟩
  | 112 => ⟨S4096x1, .f32⟩
  | 113 => ⟨S4096x1024, .f32⟩
  | 114 => ⟨S4096x1024, .f32⟩
  | 115 => ⟨S1x1024, .f32⟩
  | 116 => ⟨S4096x1024, .f32⟩
  | 117 => ⟨S4096x1024, .f32⟩
  | 118 => ⟨S1x1024, .f32⟩
  | 119 => ⟨S4096x1024, .f32⟩
  | 120 => ⟨S4096x1024, .f32⟩
  | 121 => ⟨S3x8192x64, .i32⟩
  | 122 => ⟨S3x8192x1, .f32⟩
  | 123 => ⟨S3x4x1024, .f32⟩
  | 124 => ⟨S3x1024x4, .f32⟩
  | 125 => ⟨S1x8192x64, .i32⟩
  | 126 => ⟨S8192x64, .i32⟩
  | 127 => ⟨S1x8192x1, .f32⟩
  | _ => ⟨S4096x1024, .f32⟩

abbrev hbmTy0_4 (i : Nat) : BufTy := match i % 128 with
  | 0 => ⟨S8192x1, .f32⟩
  | 1 => ⟨S1x4x1024, .f32⟩
  | 2 => ⟨S4x1024, .f32⟩
  | 3 => ⟨S1x1024x4, .f32⟩
  | 4 => ⟨S1024x4, .f32⟩
  | 5 => ⟨S_, .i32⟩
  | 6 => ⟨S8192x64, .i32⟩
  | 7 => ⟨S8192x64, .i32⟩
  | 8 => ⟨S_, .i32⟩
  | 9 => ⟨S8192x64, .i32⟩
  | 10 => ⟨S8192x64, .i32⟩
  | 11 => ⟨S_, .i32⟩
  | 12 => ⟨S8192x64, .i32⟩
  | 13 => ⟨S8192x64, .i32⟩
  | 14 => ⟨S8192x64x1, .i32⟩
  | 15 => ⟨S8192x64x1, .i32⟩
  | 16 => ⟨S8192x64x2, .i32⟩
  | 17 => ⟨S8192x128, .i32⟩
  | 18 => ⟨S8192x128, .f32⟩
  | 19 => ⟨S_, .f32⟩
  | 20 => ⟨S8192x128, .f32⟩
  | 21 => ⟨S8192x128, .f32⟩
  | 22 => ⟨S_, .f32⟩
  | 23 => ⟨S8192x128, .f32⟩
  | 24 => ⟨S8192x128, .f32⟩
  | 25 => ⟨S_, .f32⟩
  | 26 => ⟨S8192x128, .f32⟩
  | 27 => ⟨S8192x128, .f32⟩
  | 28 => ⟨S8192x128, .f32⟩
  | 29 => ⟨S8192x128, .f32⟩
  | 30 => ⟨S1024x1024, .f32⟩
  | 31 => ⟨S1024x1024, .f32⟩
  | 32 => ⟨S4096x1024, .f32⟩
  | 33 => ⟨S1024x4, .f32⟩
  | 34 => ⟨S4096x4, .f32⟩
  | 35 => ⟨S4x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S1x8192x64, .i32⟩
  | 42 => ⟨S8192x64, .i32⟩
  | 43 => ⟨S1x8192x1, .f32⟩
  | 44 => ⟨S8192x1, .f32⟩
  | 45 => ⟨S1x4x1024, .f32⟩
  | 46 => ⟨S4x1024, .f32⟩
  | 47 => ⟨S1x1024x4, .f32⟩
  | 48 => ⟨S1024x4, .f32⟩
  | 49 => ⟨S_, .i32⟩
  | 50 => ⟨S8192x64, .i32⟩
  | 51 => ⟨S8192x64, .i32⟩
  | 52 => ⟨S_, .i32⟩
  | 53 => ⟨S8192x64, .i32⟩
  | 54 => ⟨S8192x64, .i32⟩
  | 55 => ⟨S_, .i32⟩
  | 56 => ⟨S8192x64, .i32⟩
  | 57 => ⟨S8192x64, .i32⟩
  | 58 => ⟨S8192x64x1, .i32⟩
  | 59 => ⟨S8192x64x1, .i32⟩
  | 60 => ⟨S8192x64x2, .i32⟩
  | 61 => ⟨S8192x128, .i32⟩
  | 62 => ⟨S8192x128, .f32⟩
  | 63 => ⟨S_, .f32⟩
  | 64 => ⟨S8192x128, .f32⟩
  | 65 => ⟨S8192x128, .f32⟩
  | 66 => ⟨S_, .f32⟩
  | 67 => ⟨S8192x128, .f32⟩
  | 68 => ⟨S8192x128, .f32⟩
  | 69 => ⟨S_, .f32⟩
  | 70 => ⟨S8192x128, .f32⟩
  | 71 => ⟨S8192x128, .f32⟩
  | 72 => ⟨S8192x128, .f32⟩
  | 73 => ⟨S8192x128, .f32⟩
  | 74 => ⟨S1024x1024, .f32⟩
  | 75 => ⟨S1024x1024, .f32⟩
  | 76 => ⟨S4096x1024, .f32⟩
  | 77 => ⟨S1024x4, .f32⟩
  | 78 => ⟨S4096x4, .f32⟩
  | 79 => ⟨S4x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S1x8192x64, .i32⟩
  | 86 => ⟨S8192x64, .i32⟩
  | 87 => ⟨S1x8192x1, .f32⟩
  | 88 => ⟨S8192x1, .f32⟩
  | 89 => ⟨S1x4x1024, .f32⟩
  | 90 => ⟨S4x1024, .f32⟩
  | 91 => ⟨S1x1024x4, .f32⟩
  | 92 => ⟨S1024x4, .f32⟩
  | 93 => ⟨S_, .i32⟩
  | 94 => ⟨S8192x64, .i32⟩
  | 95 => ⟨S8192x64, .i32⟩
  | 96 => ⟨S_, .i32⟩
  | 97 => ⟨S8192x64, .i32⟩
  | 98 => ⟨S8192x64, .i32⟩
  | 99 => ⟨S_, .i32⟩
  | 100 => ⟨S8192x64, .i32⟩
  | 101 => ⟨S8192x64, .i32⟩
  | 102 => ⟨S8192x64x1, .i32⟩
  | 103 => ⟨S8192x64x1, .i32⟩
  | 104 => ⟨S8192x64x2, .i32⟩
  | 105 => ⟨S8192x128, .i32⟩
  | 106 => ⟨S8192x128, .f32⟩
  | 107 => ⟨S_, .f32⟩
  | 108 => ⟨S8192x128, .f32⟩
  | 109 => ⟨S8192x128, .f32⟩
  | 110 => ⟨S_, .f32⟩
  | 111 => ⟨S8192x128, .f32⟩
  | 112 => ⟨S8192x128, .f32⟩
  | 113 => ⟨S_, .f32⟩
  | 114 => ⟨S8192x128, .f32⟩
  | 115 => ⟨S8192x128, .f32⟩
  | 116 => ⟨S8192x128, .f32⟩
  | 117 => ⟨S8192x128, .f32⟩
  | 118 => ⟨S1024x1024, .f32⟩
  | 119 => ⟨S1024x1024, .f32⟩
  | 120 => ⟨S4096x1024, .f32⟩
  | 121 => ⟨S1024x4, .f32⟩
  | 122 => ⟨S4096x4, .f32⟩
  | 123 => ⟨S4x1024, .f32⟩
  | 124 => ⟨S4096x1024, .f32⟩
  | 125 => ⟨S4096x1024, .f32⟩
  | 126 => ⟨S4096x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_cst : Ref sig .tc := ⟨.hbm, 52, rfl⟩
abbrev main_call0_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_4 : Ref sig .tc := ⟨.hbm, 63, rfl⟩
abbrev main_v48 : Ref sig .tc := ⟨.hbm, 64, rfl⟩
abbrev main_v49 : Ref sig .tc := ⟨.hbm, 65, rfl⟩
abbrev main_c_5 : Ref sig .tc := ⟨.hbm, 66, rfl⟩
abbrev main_v50 : Ref sig .tc := ⟨.hbm, 67, rfl⟩
abbrev main_v51 : Ref sig .tc := ⟨.hbm, 68, rfl⟩
abbrev main_c_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_10 : Ref sig .tc := ⟨.hbm, 107, rfl⟩
abbrev main_v84 : Ref sig .tc := ⟨.hbm, 108, rfl⟩
abbrev main_v85 : Ref sig .tc := ⟨.hbm, 109, rfl⟩
abbrev main_c_11 : Ref sig .tc := ⟨.hbm, 110, rfl⟩
abbrev main_v86 : Ref sig .tc := ⟨.hbm, 111, rfl⟩
abbrev main_v87 : Ref sig .tc := ⟨.hbm, 112, rfl⟩
abbrev main_c_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_13 : Ref sig .tc := ⟨.hbm, 121, rfl⟩
abbrev main_v95 : Ref sig .tc := ⟨.hbm, 122, rfl⟩
abbrev main_v96 : Ref sig .tc := ⟨.hbm, 123, rfl⟩
abbrev main_cst_14 : Ref sig .tc := ⟨.hbm, 124, rfl⟩
abbrev main_v97 : Ref sig .tc := ⟨.hbm, 125, rfl⟩
abbrev main_v98 : Ref sig .tc := ⟨.hbm, 126, rfl⟩
abbrev main_cst_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_16 : Ref sig .tc := ⟨.hbm, 145, rfl⟩
abbrev main_v116 : Ref sig .tc := ⟨.hbm, 146, rfl⟩
abbrev main_v117 : Ref sig .tc := ⟨.hbm, 147, rfl⟩
abbrev main_cst_17 : Ref sig .tc := ⟨.hbm, 148, rfl⟩
abbrev main_v118 : Ref sig .tc := ⟨.hbm, 149, rfl⟩
abbrev main_v119 : Ref sig .tc := ⟨.hbm, 150, rfl⟩
abbrev main_c_18 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_cst_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_cst_1 : Ref sig .tc := ⟨.hbm, 162, rfl⟩
abbrev main_call2_v8 : Ref sig .tc := ⟨.hbm, 163, rfl⟩
abbrev main_call2_cst_2 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_v12 : Ref sig .tc := ⟨.hbm, 168, rfl⟩
abbrev main_call2_cst_3 : Ref sig .tc := ⟨.hbm, 169, rfl⟩
abbrev main_call2_v13 : Ref sig .tc := ⟨.hbm, 170, rfl⟩
abbrev main_call2_cst_4 : Ref sig .tc := ⟨.hbm, 171, rfl⟩
abbrev main_call2_call0_v0 : Ref sig .tc := ⟨.hbm, 172, rfl⟩
abbrev main_call2_call0_v1 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_19 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_c_20 : Ref sig .tc := ⟨.hbm, 201, rfl⟩
abbrev main_v146 : Ref sig .tc := ⟨.hbm, 202, rfl⟩
abbrev main_v147 : Ref sig .tc := ⟨.hbm, 203, rfl⟩
abbrev main_c_21 : Ref sig .tc := ⟨.hbm, 204, rfl⟩
abbrev main_v148 : Ref sig .tc := ⟨.hbm, 205, rfl⟩
abbrev main_v149 : Ref sig .tc := ⟨.hbm, 206, rfl⟩
abbrev main_c_22 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_23 : Ref sig .tc := ⟨.hbm, 215, rfl⟩
abbrev main_v157 : Ref sig .tc := ⟨.hbm, 216, rfl⟩
abbrev main_v158 : Ref sig .tc := ⟨.hbm, 217, rfl⟩
abbrev main_cst_24 : Ref sig .tc := ⟨.hbm, 218, rfl⟩
abbrev main_v159 : Ref sig .tc := ⟨.hbm, 219, rfl⟩
abbrev main_v160 : Ref sig .tc := ⟨.hbm, 220, rfl⟩
abbrev main_cst_25 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_call3_cst : Ref sig .tc := ⟨.hbm, 234, rfl⟩
abbrev main_call3_v0 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_c_26 : Ref sig .tc := ⟨.hbm, 245, rfl⟩
abbrev main_v182 : Ref sig .tc := ⟨.hbm, 246, rfl⟩
abbrev main_v183 : Ref sig .tc := ⟨.hbm, 247, rfl⟩
abbrev main_c_27 : Ref sig .tc := ⟨.hbm, 248, rfl⟩
abbrev main_v184 : Ref sig .tc := ⟨.hbm, 249, rfl⟩
abbrev main_v185 : Ref sig .tc := ⟨.hbm, 250, rfl⟩
abbrev main_c_28 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_cst_29 : Ref sig .tc := ⟨.hbm, 259, rfl⟩
abbrev main_v193 : Ref sig .tc := ⟨.hbm, 260, rfl⟩
abbrev main_v194 : Ref sig .tc := ⟨.hbm, 261, rfl⟩
abbrev main_cst_30 : Ref sig .tc := ⟨.hbm, 262, rfl⟩
abbrev main_v195 : Ref sig .tc := ⟨.hbm, 263, rfl⟩
abbrev main_v196 : Ref sig .tc := ⟨.hbm, 264, rfl⟩
abbrev main_cst_31 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_call4_cst : Ref sig .tc := ⟨.hbm, 278, rfl⟩
abbrev main_call4_v0 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_c_32 : Ref sig .tc := ⟨.hbm, 289, rfl⟩
abbrev main_v218 : Ref sig .tc := ⟨.hbm, 290, rfl⟩
abbrev main_v219 : Ref sig .tc := ⟨.hbm, 291, rfl⟩
abbrev main_c_33 : Ref sig .tc := ⟨.hbm, 292, rfl⟩
abbrev main_v220 : Ref sig .tc := ⟨.hbm, 293, rfl⟩
abbrev main_v221 : Ref sig .tc := ⟨.hbm, 294, rfl⟩
abbrev main_c_34 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_cst_35 : Ref sig .tc := ⟨.hbm, 303, rfl⟩
abbrev main_v229 : Ref sig .tc := ⟨.hbm, 304, rfl⟩
abbrev main_v230 : Ref sig .tc := ⟨.hbm, 305, rfl⟩
abbrev main_cst_36 : Ref sig .tc := ⟨.hbm, 306, rfl⟩
abbrev main_v231 : Ref sig .tc := ⟨.hbm, 307, rfl⟩
abbrev main_v232 : Ref sig .tc := ⟨.hbm, 308, rfl⟩
abbrev main_cst_37 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_c_38 : Ref sig .tc := ⟨.hbm, 335, rfl⟩
abbrev main_v258 : Ref sig .tc := ⟨.hbm, 336, rfl⟩
abbrev main_v259 : Ref sig .tc := ⟨.hbm, 337, rfl⟩
abbrev main_c_39 : Ref sig .tc := ⟨.hbm, 338, rfl⟩
abbrev main_v260 : Ref sig .tc := ⟨.hbm, 339, rfl⟩
abbrev main_v261 : Ref sig .tc := ⟨.hbm, 340, rfl⟩
abbrev main_c_40 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_cst_41 : Ref sig .tc := ⟨.hbm, 349, rfl⟩
abbrev main_v269 : Ref sig .tc := ⟨.hbm, 350, rfl⟩
abbrev main_v270 : Ref sig .tc := ⟨.hbm, 351, rfl⟩
abbrev main_cst_42 : Ref sig .tc := ⟨.hbm, 352, rfl⟩
abbrev main_v271 : Ref sig .tc := ⟨.hbm, 353, rfl⟩
abbrev main_v272 : Ref sig .tc := ⟨.hbm, 354, rfl⟩
abbrev main_cst_43 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_call5_cst : Ref sig .tc := ⟨.hbm, 368, rfl⟩
abbrev main_call5_v0 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_c_44 : Ref sig .tc := ⟨.hbm, 379, rfl⟩
abbrev main_v294 : Ref sig .tc := ⟨.hbm, 380, rfl⟩
abbrev main_v295 : Ref sig .tc := ⟨.hbm, 381, rfl⟩
abbrev main_c_45 : Ref sig .tc := ⟨.hbm, 382, rfl⟩
abbrev main_v296 : Ref sig .tc := ⟨.hbm, 383, rfl⟩
abbrev main_v297 : Ref sig .tc := ⟨.hbm, 384, rfl⟩
abbrev main_c_46 : Ref sig .tc := ⟨.hbm, 385, rfl⟩
abbrev main_v298 : Ref sig .tc := ⟨.hbm, 386, rfl⟩
abbrev main_v299 : Ref sig .tc := ⟨.hbm, 387, rfl⟩
abbrev main_v300 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_v304 : Ref sig .tc := ⟨.hbm, 392, rfl⟩
abbrev main_cst_47 : Ref sig .tc := ⟨.hbm, 393, rfl⟩
abbrev main_v305 : Ref sig .tc := ⟨.hbm, 394, rfl⟩
abbrev main_v306 : Ref sig .tc := ⟨.hbm, 395, rfl⟩
abbrev main_cst_48 : Ref sig .tc := ⟨.hbm, 396, rfl⟩
abbrev main_v307 : Ref sig .tc := ⟨.hbm, 397, rfl⟩
abbrev main_v308 : Ref sig .tc := ⟨.hbm, 398, rfl⟩
abbrev main_cst_49 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_call6_cst : Ref sig .tc := ⟨.hbm, 412, rfl⟩
abbrev main_call6_v0 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_c_50 : Ref sig .tc := ⟨.hbm, 423, rfl⟩
abbrev main_v330 : Ref sig .tc := ⟨.hbm, 424, rfl⟩
abbrev main_v331 : Ref sig .tc := ⟨.hbm, 425, rfl⟩
abbrev main_c_51 : Ref sig .tc := ⟨.hbm, 426, rfl⟩
abbrev main_v332 : Ref sig .tc := ⟨.hbm, 427, rfl⟩
abbrev main_v333 : Ref sig .tc := ⟨.hbm, 428, rfl⟩
abbrev main_c_52 : Ref sig .tc := ⟨.hbm, 429, rfl⟩
abbrev main_v334 : Ref sig .tc := ⟨.hbm, 430, rfl⟩
abbrev main_v335 : Ref sig .tc := ⟨.hbm, 431, rfl⟩
abbrev main_v336 : Ref sig .tc := ⟨.hbm, 432, rfl⟩
abbrev main_v337 : Ref sig .tc := ⟨.hbm, 433, rfl⟩
abbrev main_v338 : Ref sig .tc := ⟨.hbm, 434, rfl⟩
abbrev main_v339 : Ref sig .tc := ⟨.hbm, 435, rfl⟩
abbrev main_v340 : Ref sig .tc := ⟨.hbm, 436, rfl⟩
abbrev main_cst_53 : Ref sig .tc := ⟨.hbm, 437, rfl⟩
abbrev main_v341 : Ref sig .tc := ⟨.hbm, 438, rfl⟩
abbrev main_v342 : Ref sig .tc := ⟨.hbm, 439, rfl⟩
abbrev main_cst_54 : Ref sig .tc := ⟨.hbm, 440, rfl⟩
abbrev main_v343 : Ref sig .tc := ⟨.hbm, 441, rfl⟩
abbrev main_v344 : Ref sig .tc := ⟨.hbm, 442, rfl⟩
abbrev main_cst_55 : Ref sig .tc := ⟨.hbm, 443, rfl⟩
abbrev main_v345 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_v351 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_v356 : Ref sig .tc := ⟨.hbm, 455, rfl⟩
abbrev main_v357 : Ref sig .tc := ⟨.hbm, 456, rfl⟩
abbrev main_v358 : Ref sig .tc := ⟨.hbm, 457, rfl⟩
abbrev main_v359 : Ref sig .tc := ⟨.hbm, 458, rfl⟩
abbrev main_v360 : Ref sig .tc := ⟨.hbm, 459, rfl⟩
abbrev main_v361 : Ref sig .tc := ⟨.hbm, 460, rfl⟩
abbrev main_cst_56 : Ref sig .tc := ⟨.hbm, 461, rfl⟩
abbrev main_v362 : Ref sig .tc := ⟨.hbm, 462, rfl⟩
abbrev main_v363 : Ref sig .tc := ⟨.hbm, 463, rfl⟩
abbrev main_cst_57 : Ref sig .tc := ⟨.hbm, 464, rfl⟩
abbrev main_v364 : Ref sig .tc := ⟨.hbm, 465, rfl⟩
abbrev main_v365 : Ref sig .tc := ⟨.hbm, 466, rfl⟩
abbrev main_c_58 : Ref sig .tc := ⟨.hbm, 467, rfl⟩
abbrev main_call7_cst : Ref sig .tc := ⟨.hbm, 468, rfl⟩
abbrev main_call7_v0 : Ref sig .tc := ⟨.hbm, 469, rfl⟩
abbrev main_call7_v1 : Ref sig .tc := ⟨.hbm, 470, rfl⟩
abbrev main_call7_cst_0 : Ref sig .tc := ⟨.hbm, 471, rfl⟩
abbrev main_call7_v2 : Ref sig .tc := ⟨.hbm, 472, rfl⟩
abbrev main_call7_v3 : Ref sig .tc := ⟨.hbm, 473, rfl⟩
abbrev main_call7_v4 : Ref sig .tc := ⟨.hbm, 474, rfl⟩
abbrev main_call7_v5 : Ref sig .tc := ⟨.hbm, 475, rfl⟩
abbrev main_call7_v6 : Ref sig .tc := ⟨.hbm, 476, rfl⟩
abbrev main_call7_v7 : Ref sig .tc := ⟨.hbm, 477, rfl⟩
abbrev main_call7_cst_1 : Ref sig .tc := ⟨.hbm, 478, rfl⟩
abbrev main_call7_v8 : Ref sig .tc := ⟨.hbm, 479, rfl⟩
abbrev main_call7_cst_2 : Ref sig .tc := ⟨.hbm, 480, rfl⟩
abbrev main_call7_v9 : Ref sig .tc := ⟨.hbm, 481, rfl⟩
abbrev main_call7_v10 : Ref sig .tc := ⟨.hbm, 482, rfl⟩
abbrev main_call7_v11 : Ref sig .tc := ⟨.hbm, 483, rfl⟩
abbrev main_call7_v12 : Ref sig .tc := ⟨.hbm, 484, rfl⟩
abbrev main_call7_cst_3 : Ref sig .tc := ⟨.hbm, 485, rfl⟩
abbrev main_call7_v13 : Ref sig .tc := ⟨.hbm, 486, rfl⟩
abbrev main_call7_cst_4 : Ref sig .tc := ⟨.hbm, 487, rfl⟩
abbrev main_call7_call0_v0 : Ref sig .tc := ⟨.hbm, 488, rfl⟩
abbrev main_call7_call0_v1 : Ref sig .tc := ⟨.hbm, 489, rfl⟩
abbrev main_v366 : Ref sig .tc := ⟨.hbm, 490, rfl⟩
abbrev main_v367 : Ref sig .tc := ⟨.hbm, 491, rfl⟩
abbrev main_v368 : Ref sig .tc := ⟨.hbm, 492, rfl⟩
abbrev main_cst_59 : Ref sig .tc := ⟨.hbm, 493, rfl⟩
abbrev main_v369 : Ref sig .tc := ⟨.hbm, 494, rfl⟩
abbrev main_v370 : Ref sig .tc := ⟨.hbm, 495, rfl⟩
abbrev main_v371 : Ref sig .tc := ⟨.hbm, 496, rfl⟩
abbrev main_v372 : Ref sig .tc := ⟨.hbm, 497, rfl⟩
abbrev main_v373 : Ref sig .tc := ⟨.hbm, 498, rfl⟩
abbrev main_v374 : Ref sig .tc := ⟨.hbm, 499, rfl⟩
abbrev main_v375 : Ref sig .tc := ⟨.hbm, 500, rfl⟩
abbrev main_v376 : Ref sig .tc := ⟨.hbm, 501, rfl⟩
abbrev main_v377 : Ref sig .tc := ⟨.hbm, 502, rfl⟩
abbrev main_v378 : Ref sig .tc := ⟨.hbm, 503, rfl⟩
abbrev main_v379 : Ref sig .tc := ⟨.hbm, 504, rfl⟩
abbrev main_v380 : Ref sig .tc := ⟨.hbm, 505, rfl⟩
abbrev main_v381 : Ref sig .tc := ⟨.hbm, 506, rfl⟩
abbrev main_v382 : Ref sig .tc := ⟨.hbm, 507, rfl⟩
abbrev main_v383 : Ref sig .tc := ⟨.hbm, 508, rfl⟩
abbrev main_v384 : Ref sig .tc := ⟨.hbm, 509, rfl⟩
abbrev main_v385 : Ref sig .tc := ⟨.hbm, 510, rfl⟩
abbrev main_v386 : Ref sig .tc := ⟨.hbm, 511, rfl⟩
abbrev main_v387 : Ref sig .tc := ⟨.hbm, 512, rfl⟩
abbrev main_v388 : Ref sig .tc := ⟨.hbm, 513, rfl⟩
abbrev main_v389 : Ref sig .tc := ⟨.hbm, 514, rfl⟩
abbrev main_v390 : Ref sig .tc := ⟨.hbm, 515, rfl⟩
abbrev main_v391 : Ref sig .tc := ⟨.hbm, 516, rfl⟩
abbrev main_c_60 : Ref sig .tc := ⟨.hbm, 517, rfl⟩
abbrev main_v392 : Ref sig .tc := ⟨.hbm, 518, rfl⟩
abbrev main_v393 : Ref sig .tc := ⟨.hbm, 519, rfl⟩
abbrev main_c_61 : Ref sig .tc := ⟨.hbm, 520, rfl⟩
abbrev main_v394 : Ref sig .tc := ⟨.hbm, 521, rfl⟩
abbrev main_v395 : Ref sig .tc := ⟨.hbm, 522, rfl⟩
abbrev main_c_62 : Ref sig .tc := ⟨.hbm, 523, rfl⟩
abbrev main_v396 : Ref sig .tc := ⟨.hbm, 524, rfl⟩
abbrev main_v397 : Ref sig .tc := ⟨.hbm, 525, rfl⟩
abbrev main_v398 : Ref sig .tc := ⟨.hbm, 526, rfl⟩
abbrev main_v399 : Ref sig .tc := ⟨.hbm, 527, rfl⟩
abbrev main_v400 : Ref sig .tc := ⟨.hbm, 528, rfl⟩
abbrev main_v401 : Ref sig .tc := ⟨.hbm, 529, rfl⟩
abbrev main_v402 : Ref sig .tc := ⟨.hbm, 530, rfl⟩
abbrev main_cst_63 : Ref sig .tc := ⟨.hbm, 531, rfl⟩
abbrev main_v403 : Ref sig .tc := ⟨.hbm, 532, rfl⟩
abbrev main_v404 : Ref sig .tc := ⟨.hbm, 533, rfl⟩
abbrev main_cst_64 : Ref sig .tc := ⟨.hbm, 534, rfl⟩
abbrev main_v405 : Ref sig .tc := ⟨.hbm, 535, rfl⟩
abbrev main_v406 : Ref sig .tc := ⟨.hbm, 536, rfl⟩
abbrev main_cst_65 : Ref sig .tc := ⟨.hbm, 537, rfl⟩
abbrev main_v407 : Ref sig .tc := ⟨.hbm, 538, rfl⟩
abbrev main_v408 : Ref sig .tc := ⟨.hbm, 539, rfl⟩
abbrev main_v409 : Ref sig .tc := ⟨.hbm, 540, rfl⟩
abbrev main_v410 : Ref sig .tc := ⟨.hbm, 541, rfl⟩
abbrev main_v411 : Ref sig .tc := ⟨.hbm, 542, rfl⟩
abbrev main_v412 : Ref sig .tc := ⟨.hbm, 543, rfl⟩
abbrev main_v413 : Ref sig .tc := ⟨.hbm, 544, rfl⟩
abbrev main_v414 : Ref sig .tc := ⟨.hbm, 545, rfl⟩
abbrev main_v415 : Ref sig .tc := ⟨.hbm, 546, rfl⟩
abbrev main_v416 : Ref sig .tc := ⟨.hbm, 547, rfl⟩
abbrev main_v417 : Ref sig .tc := ⟨.hbm, 548, rfl⟩
abbrev main_v418 : Ref sig .tc := ⟨.hbm, 549, rfl⟩
abbrev main_call8_cst : Ref sig .tc := ⟨.hbm, 550, rfl⟩
abbrev main_call8_v0 : Ref sig .tc := ⟨.hbm, 551, rfl⟩
abbrev main_v419 : Ref sig .tc := ⟨.hbm, 552, rfl⟩
abbrev main_v420 : Ref sig .tc := ⟨.hbm, 553, rfl⟩
abbrev main_v421 : Ref sig .tc := ⟨.hbm, 554, rfl⟩
abbrev main_v422 : Ref sig .tc := ⟨.hbm, 555, rfl⟩
abbrev main_v423 : Ref sig .tc := ⟨.hbm, 556, rfl⟩
abbrev main_v424 : Ref sig .tc := ⟨.hbm, 557, rfl⟩
abbrev main_v425 : Ref sig .tc := ⟨.hbm, 558, rfl⟩
abbrev main_v426 : Ref sig .tc := ⟨.hbm, 559, rfl⟩
abbrev main_v427 : Ref sig .tc := ⟨.hbm, 560, rfl⟩
abbrev main_c_66 : Ref sig .tc := ⟨.hbm, 561, rfl⟩
abbrev main_v428 : Ref sig .tc := ⟨.hbm, 562, rfl⟩
abbrev main_v429 : Ref sig .tc := ⟨.hbm, 563, rfl⟩
abbrev main_c_67 : Ref sig .tc := ⟨.hbm, 564, rfl⟩
abbrev main_v430 : Ref sig .tc := ⟨.hbm, 565, rfl⟩
abbrev main_v431 : Ref sig .tc := ⟨.hbm, 566, rfl⟩
abbrev main_c_68 : Ref sig .tc := ⟨.hbm, 567, rfl⟩
abbrev main_v432 : Ref sig .tc := ⟨.hbm, 568, rfl⟩
abbrev main_v433 : Ref sig .tc := ⟨.hbm, 569, rfl⟩
abbrev main_v434 : Ref sig .tc := ⟨.hbm, 570, rfl⟩
abbrev main_v435 : Ref sig .tc := ⟨.hbm, 571, rfl⟩
abbrev main_v436 : Ref sig .tc := ⟨.hbm, 572, rfl⟩
abbrev main_v437 : Ref sig .tc := ⟨.hbm, 573, rfl⟩
abbrev main_v438 : Ref sig .tc := ⟨.hbm, 574, rfl⟩
abbrev main_cst_69 : Ref sig .tc := ⟨.hbm, 575, rfl⟩
abbrev main_v439 : Ref sig .tc := ⟨.hbm, 576, rfl⟩
abbrev main_v440 : Ref sig .tc := ⟨.hbm, 577, rfl⟩
abbrev main_cst_70 : Ref sig .tc := ⟨.hbm, 578, rfl⟩
abbrev main_v441 : Ref sig .tc := ⟨.hbm, 579, rfl⟩
abbrev main_v442 : Ref sig .tc := ⟨.hbm, 580, rfl⟩
abbrev main_cst_71 : Ref sig .tc := ⟨.hbm, 581, rfl⟩
abbrev main_v443 : Ref sig .tc := ⟨.hbm, 582, rfl⟩
abbrev main_v444 : Ref sig .tc := ⟨.hbm, 583, rfl⟩
abbrev main_v445 : Ref sig .tc := ⟨.hbm, 584, rfl⟩
abbrev main_v446 : Ref sig .tc := ⟨.hbm, 585, rfl⟩
abbrev main_v447 : Ref sig .tc := ⟨.hbm, 586, rfl⟩
abbrev main_v448 : Ref sig .tc := ⟨.hbm, 587, rfl⟩
abbrev main_v449 : Ref sig .tc := ⟨.hbm, 588, rfl⟩
abbrev main_v450 : Ref sig .tc := ⟨.hbm, 589, rfl⟩
abbrev main_v451 : Ref sig .tc := ⟨.hbm, 590, rfl⟩
abbrev main_v452 : Ref sig .tc := ⟨.hbm, 591, rfl⟩
abbrev main_v453 : Ref sig .tc := ⟨.hbm, 592, rfl⟩
abbrev main_v454 : Ref sig .tc := ⟨.hbm, 593, rfl⟩
abbrev main_call9_cst : Ref sig .tc := ⟨.hbm, 594, rfl⟩
abbrev main_call9_v0 : Ref sig .tc := ⟨.hbm, 595, rfl⟩
abbrev main_v455 : Ref sig .tc := ⟨.hbm, 596, rfl⟩
abbrev main_v456 : Ref sig .tc := ⟨.hbm, 597, rfl⟩
abbrev main_v457 : Ref sig .tc := ⟨.hbm, 598, rfl⟩
abbrev main_v458 : Ref sig .tc := ⟨.hbm, 599, rfl⟩
abbrev main_v459 : Ref sig .tc := ⟨.hbm, 600, rfl⟩
abbrev main_v460 : Ref sig .tc := ⟨.hbm, 601, rfl⟩
abbrev main_v461 : Ref sig .tc := ⟨.hbm, 602, rfl⟩
abbrev main_v462 : Ref sig .tc := ⟨.hbm, 603, rfl⟩
abbrev main_v463 : Ref sig .tc := ⟨.hbm, 604, rfl⟩
abbrev main_c_72 : Ref sig .tc := ⟨.hbm, 605, rfl⟩
abbrev main_v464 : Ref sig .tc := ⟨.hbm, 606, rfl⟩
abbrev main_v465 : Ref sig .tc := ⟨.hbm, 607, rfl⟩
abbrev main_c_73 : Ref sig .tc := ⟨.hbm, 608, rfl⟩
abbrev main_v466 : Ref sig .tc := ⟨.hbm, 609, rfl⟩
abbrev main_v467 : Ref sig .tc := ⟨.hbm, 610, rfl⟩
abbrev main_c_74 : Ref sig .tc := ⟨.hbm, 611, rfl⟩
abbrev main_v468 : Ref sig .tc := ⟨.hbm, 612, rfl⟩
abbrev main_v469 : Ref sig .tc := ⟨.hbm, 613, rfl⟩
abbrev main_v470 : Ref sig .tc := ⟨.hbm, 614, rfl⟩
abbrev main_v471 : Ref sig .tc := ⟨.hbm, 615, rfl⟩
abbrev main_v472 : Ref sig .tc := ⟨.hbm, 616, rfl⟩
abbrev main_v473 : Ref sig .tc := ⟨.hbm, 617, rfl⟩
abbrev main_v474 : Ref sig .tc := ⟨.hbm, 618, rfl⟩
abbrev main_cst_75 : Ref sig .tc := ⟨.hbm, 619, rfl⟩
abbrev main_v475 : Ref sig .tc := ⟨.hbm, 620, rfl⟩
abbrev main_v476 : Ref sig .tc := ⟨.hbm, 621, rfl⟩
abbrev main_cst_76 : Ref sig .tc := ⟨.hbm, 622, rfl⟩
abbrev main_v477 : Ref sig .tc := ⟨.hbm, 623, rfl⟩
abbrev main_v478 : Ref sig .tc := ⟨.hbm, 624, rfl⟩
abbrev main_cst_77 : Ref sig .tc := ⟨.hbm, 625, rfl⟩
abbrev main_v479 : Ref sig .tc := ⟨.hbm, 626, rfl⟩
abbrev main_v480 : Ref sig .tc := ⟨.hbm, 627, rfl⟩
abbrev main_v481 : Ref sig .tc := ⟨.hbm, 628, rfl⟩
abbrev main_v482 : Ref sig .tc := ⟨.hbm, 629, rfl⟩
abbrev main_v483 : Ref sig .tc := ⟨.hbm, 630, rfl⟩
abbrev main_v484 : Ref sig .tc := ⟨.hbm, 631, rfl⟩
abbrev main_v485 : Ref sig .tc := ⟨.hbm, 632, rfl⟩
abbrev main_v486 : Ref sig .tc := ⟨.hbm, 633, rfl⟩
abbrev main_v487 : Ref sig .tc := ⟨.hbm, 634, rfl⟩
abbrev main_v488 : Ref sig .tc := ⟨.hbm, 635, rfl⟩
abbrev main_v489 : Ref sig .tc := ⟨.hbm, 636, rfl⟩
abbrev main_v490 : Ref sig .tc := ⟨.hbm, 637, rfl⟩
abbrev main_v491 : Ref sig .tc := ⟨.hbm, 638, rfl⟩

abbrev nD : Nat := 1
abbrev τ : Topo := Topo.v7x

variable {F : FTy → Type} [FloatOps F]

class Facts₀ : Prop where
  slices_S12x8192x64_S3x8192x64_0_0_0 : S12x8192x64.Slices ![0, 0, 0] S3x8192x64
  slices_S12x8192x1_S3x8192x1_0_0_0 : S12x8192x1.Slices ![0, 0, 0] S3x8192x1
  slices_S12x4x1024_S3x4x1024_0_0_0 : S12x4x1024.Slices ![0, 0, 0] S3x4x1024
  slices_S12x1024x4_S3x1024x4_0_0_0 : S12x1024x4.Slices ![0, 0, 0] S3x1024x4
  slices_S3x8192x64_S1x8192x64_0_0_0 : S3x8192x64.Slices ![0, 0, 0] S1x8192x64
  shapeCasts_S1x8192x64_S8192x64 : S1x8192x64.ShapeCasts S8192x64
  slices_S3x8192x1_S1x8192x1_0_0_0 : S3x8192x1.Slices ![0, 0, 0] S1x8192x1
  shapeCasts_S1x8192x1_S8192x1 : S1x8192x1.ShapeCasts S8192x1
  slices_S3x4x1024_S1x4x1024_0_0_0 : S3x4x1024.Slices ![0, 0, 0] S1x4x1024
  shapeCasts_S1x4x1024_S4x1024 : S1x4x1024.ShapeCasts S4x1024
  slices_S3x1024x4_S1x1024x4_0_0_0 : S3x1024x4.Slices ![0, 0, 0] S1x1024x4
  shapeCasts_S1x1024x4_S1024x4 : S1x1024x4.ShapeCasts S1024x4
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  concatenates_S8192x64x1_S8192x64x1_S8192x64x2_d2 : Shape.Concatenates [S8192x64x1, S8192x64x1] S8192x64x2 2
  shapeCasts_S8192x64x2_S8192x128 : S8192x64x2.ShapeCasts S8192x128
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  shapeCasts_S8192x128_S1024x1024 : S8192x128.ShapeCasts S1024x1024
  transposes_S1024x1024_S1024x1024_1_0 : S1024x1024.Transposes [1, 0] S1024x1024
  transposes_S4x1024_S1024x4_1_0 : S4x1024.Transposes [1, 0] S1024x4
  transposes_S1024x4_S4x1024_1_0 : S1024x4.Transposes [1, 0] S4x1024
  bcast_S_S4096x1024 : S_.BroadcastsInDim S4096x1024 (![] : Fin 0 → Fin S4096x1024.rank)
  slices_S3x8192x64_S1x8192x64_1_0_0 : S3x8192x64.Slices ![1, 0, 0] S1x8192x64
  slices_S3x8192x1_S1x8192x1_1_0_0 : S3x8192x1.Slices ![1, 0, 0] S1x8192x1
  slices_S3x4x1024_S1x4x1024_1_0_0 : S3x4x1024.Slices ![1, 0, 0] S1x4x1024
  slices_S3x1024x4_S1x1024x4_1_0_0 : S3x1024x4.Slices ![1, 0, 0] S1x1024x4
  slices_S3x8192x64_S1x8192x64_2_0_0 : S3x8192x64.Slices ![2, 0, 0] S1x8192x64
  slices_S3x8192x1_S1x8192x1_2_0_0 : S3x8192x1.Slices ![2, 0, 0] S1x8192x1
  slices_S3x4x1024_S1x4x1024_2_0_0 : S3x4x1024.Slices ![2, 0, 0] S1x4x1024
  slices_S3x1024x4_S1x1024x4_2_0_0 : S3x1024x4.Slices ![2, 0, 0] S1x1024x4
  slices_S2x1024_S1x1024_0_0 : S2x1024.Slices ![0, 0] S1x1024
  shapeCasts_S1x1024_S1024 : S1x1024.ShapeCasts S1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S12x8192x64_S3x8192x64_3_0_0 : S12x8192x64.Slices ![3, 0, 0] S3x8192x64
  slices_S12x8192x1_S3x8192x1_3_0_0 : S12x8192x1.Slices ![3, 0, 0] S3x8192x1
  slices_S12x4x1024_S3x4x1024_3_0_0 : S12x4x1024.Slices ![3, 0, 0] S3x4x1024
  slices_S12x1024x4_S3x1024x4_3_0_0 : S12x1024x4.Slices ![3, 0, 0] S3x1024x4
  slices_S12x8192x64_S3x8192x64_6_0_0 : S12x8192x64.Slices ![6, 0, 0] S3x8192x64
  slices_S12x8192x1_S3x8192x1_6_0_0 : S12x8192x1.Slices ![6, 0, 0] S3x8192x1
  slices_S12x4x1024_S3x4x1024_6_0_0 : S12x4x1024.Slices ![6, 0, 0] S3x4x1024
  slices_S12x1024x4_S3x1024x4_6_0_0 : S12x1024x4.Slices ![6, 0, 0] S3x1024x4
  slices_S2x1024_S1x1024_1_0 : S2x1024.Slices ![1, 0] S1x1024
  slices_S12x8192x64_S3x8192x64_9_0_0 : S12x8192x64.Slices ![9, 0, 0] S3x8192x64
  slices_S12x8192x1_S3x8192x1_9_0_0 : S12x8192x1.Slices ![9, 0, 0] S3x8192x1
  slices_S12x4x1024_S3x4x1024_9_0_0 : S12x4x1024.Slices ![9, 0, 0] S3x4x1024
  slices_S12x1024x4_S3x1024x4_9_0_0 : S12x1024x4.Slices ![9, 0, 0] S3x1024x4
  dot_S4096x1024_S1024x1024_S4096x1024_1_0_0_1_n_n_wf : DotDims.WF S4096x1024 S1024x1024 S4096x1024 [1] [0] [0] [1] [] []
  dot_S4096x1024_S1024x4_S4096x4_1_0_0_1_n_n_wf : DotDims.WF S4096x1024 S1024x4 S4096x4 [1] [0] [0] [1] [] []
  dot_S4096x4_S4x1024_S4096x1024_1_0_0_1_n_n_wf : DotDims.WF S4096x4 S4x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4_S4096x4_1_0_0_1_n_n : DotDims S4096x1024 S1024x4 S4096x4 where
  lhsContracting := [1]
  rhsContracting := [0]
  lhsNonContracting := [0]
  rhsNonContracting := [1]
  lhsBatch := []
  rhsBatch := []
  wf := dot_S4096x1024_S1024x4_S4096x4_1_0_0_1_n_n_wf
def dot_S4096x4_S4x1024_S4096x1024_1_0_0_1_n_n : DotDims S4096x4 S4x1024 S4096x1024 where
  lhsContracting := [1]
  rhsContracting := [0]
  lhsNonContracting := [0]
  rhsNonContracting := [1]
  lhsBatch := []
  rhsBatch := []
  wf := dot_S4096x4_S4x1024_S4096x1024_1_0_0_1_n_n_wf

class Facts : Prop extends Facts₀ where

variable [Facts]
-- ==== Proof.Spec.lean ====
import Idealize.ShloMosaic.PureOps.Ideal
import Idealize.ShloMosaic.Lib.ValueIdx

noncomputable section

namespace QNet

open Idealize.ShloMosaic Idealize.ShloMosaic.ValueIdx
open scoped BigOperators

abbrev Row := Fin 1024 → EReal

abbrev Mat := Fin 1024 → Fin 1024 → EReal

abbrev MatA := Fin 4 → Fin 1024 → EReal

abbrev MatB := Fin 1024 → Fin 4 → EReal

def IsR (x : EReal) : Prop := ∃ r : ℝ, x = (r : EReal)

def lin (M : Mat) (h : Row) : Row := fun o => ∑ i : Fin 1024, h i * M o i

-- The rank-4 product folded into the weight: W + B·A.
def fold (W : Mat) (A : MatA) (B : MatB) : Mat := fun o i => W o i + ∑ r : Fin 4, B o r * A r i

-- The same layer with the rank-4 pair kept apart: h·Wᵀ + (h·Aᵀ)·Bᵀ.
def linLR (W : Mat) (A : MatA) (B : MatB) (h : Row) : Row :=
  fun o => (∑ i : Fin 1024, h i * W o i) + ∑ r : Fin 4, (∑ i : Fin 1024, h i * A r i) * B o r

def relu (h : Row) : Row := fun o => max (h o) 0

def radd (h x : Row) : Row := fun o => h o + x o

def c1024 : EReal := Ideal.ofBits .f32 0x44800000#32

def ceps : EReal := Ideal.ofBits .f32 0x3727C5AC#32

def mean (h : Row) : EReal := Ideal.div (∑ q : Fin 1024, h q) c1024

def var (h : Row) : EReal := Ideal.div (∑ q : Fin 1024, (h q - mean h) * (h q - mean h)) c1024

def ln (g b : Row) (h : Row) : Row :=
  fun o => (h o - mean h) * Ideal.rsqrt (var h + ceps) * g o + b o

def block (L0 L1 L2 : Row → Row) (x : Row) : Row := radd (L2 (relu (L1 (relu (L0 x))))) x

def net (L : Fin 12 → Row → Row) (g b : Fin 2 → Row) (x : Row) : Row :=
  block (L 9) (L 10) (L 11)
    (ln (g 1) (b 1)
      (block (L 6) (L 7) (L 8)
        (block (L 3) (L 4) (L 5)
          (ln (g 0) (b 0) (block (L 0) (L 1) (L 2) x)))))

def netK (W : Fin 12 → Mat) (A : Fin 12 → MatA) (B : Fin 12 → MatB) (g b : Fin 2 → Row) (x : Row) : Row :=
  net (fun l => lin (fold (W l) (A l) (B l))) g b x

def netR (W : Fin 12 → Mat) (A : Fin 12 → MatA) (B : Fin 12 → MatB) (g b : Fin 2 → Row) (x : Row) : Row :=
  net (fun l => linLR (W l) (A l) (B l)) g b x

private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem IsR.add {x y : EReal} (hx : IsR x) (hy : IsR y) : IsR (x + y) := by
  obtain ⟨a, rfl⟩ := hx; obtain ⟨c, rfl⟩ := hy
  exact ⟨a + c, (EReal.coe_add a c).symm⟩

private theorem IsR.max_zero {x : EReal} (hx : IsR x) : IsR (max x 0) := by
  obtain ⟨a, rfl⟩ := hx
  rcases le_total (a : EReal) 0 with h | h
  · rw [max_eq_right h]; exact ⟨0, rfl⟩
  · rw [max_eq_left h]; exact ⟨a, rfl⟩

private theorem relu_isR {h : Row} (hh : ∀ i, IsR (h i)) : ∀ i, IsR (relu h i) :=
  fun i => (hh i).max_zero

private theorem radd_isR {h x : Row} (hh : ∀ i, IsR (h i)) (hx : ∀ i, IsR (x i)) : ∀ i, IsR (radd h x i) :=
  fun i => (hh i).add (hx i)

-- On real entries the two layers agree (distributivity, then an exchange of two finite sums), and the result is real.
theorem lin_fold_eq (W : Mat) (A : MatA) (B : MatB) (h : Row)
    (hW : ∀ o i, IsR (W o i)) (hA : ∀ r i, IsR (A r i)) (hB : ∀ o r, IsR (B o r)) (hh : ∀ i, IsR (h i)) :
    lin (fold W A B) h = linLR W A B h ∧ ∀ o, IsR (linLR W A B h o) := by
  choose W' hW' using hW
  choose A' hA' using hA
  choose B' hB' using hB
  choose h' hh' using hh
  have key : ∀ o, linLR W A B h o
      = ((∑ i, h' i * W' o i + ∑ r, (∑ i, h' i * A' r i) * B' o r : ℝ) : EReal) := by
    intro o
    simp only [linLR, hW', hA', hB', hh', ← EReal.coe_mul, ← coe_sum, ← EReal.coe_add]
  have key2 : ∀ o, lin (fold W A B) h o
      = ((∑ i, h' i * (W' o i + ∑ r, B' o r * A' r i) : ℝ) : EReal) := by
    intro o
    simp only [lin, fold, hW', hA', hB', hh', ← EReal.coe_mul, ← coe_sum, ← EReal.coe_add]
  refine ⟨?_, fun o => ⟨_, key o⟩⟩
  funext o
  rw [key o, key2 o]
  congr 1
  simp only [mul_add, Finset.sum_add_distrib, Finset.mul_sum, Finset.sum_mul]
  congr 1
  rw [Finset.sum_comm]
  refine Finset.sum_congr rfl fun r _ => Finset.sum_congr rfl fun i _ => ?_
  ring

private theorem c1024_eq : c1024 = ((1024 : ℝ) : EReal) := by
  simp [c1024, Ideal.ofBits, Ideal.ieee, -EReal.coe_mul]; norm_num

private theorem ceps_pos : ∃ e : ℝ, 0 < e ∧ ceps = (e : EReal) := by
  simp [ceps, Ideal.ofBits, Ideal.ieee, -EReal.coe_mul]

-- A normalised real row is real: the variance is non-negative, so its offset square root is a positive real.
theorem ln_isR (g b h : Row) (hg : ∀ i, IsR (g i)) (hb : ∀ i, IsR (b i)) (hh : ∀ i, IsR (h i)) :
    ∀ o, IsR (ln g b h o) := by
  choose g' hg' using hg
  choose b' hb' using hb
  choose h' hh' using hh
  obtain ⟨e, he, hce⟩ := ceps_pos
  have h1024 : (1024 : ℝ) ≠ 0 := by norm_num

  have hmean : mean h = (((∑ q, h' q) * (1 / 1024) : ℝ) : EReal) := by
    simp only [mean, c1024_eq, Ideal.div_coe h1024, hh', ← coe_sum, ← EReal.coe_mul]

  have hvar : var h = (((∑ q, (h' q - (∑ q, h' q) * (1 / 1024)) * (h' q - (∑ q, h' q) * (1 / 1024)))
      * (1 / 1024) : ℝ) : EReal) := by
    simp only [var, hmean, c1024_eq, Ideal.div_coe h1024, hh', ← EReal.coe_sub, ← coe_sum, ← EReal.coe_mul]
  have hv0 : 0 ≤ (∑ q, (h' q - (∑ q, h' q) * (1 / 1024)) * (h' q - (∑ q, h' q) * (1 / 1024)))
      * (1 / 1024 : ℝ) :=
    mul_nonneg (Finset.sum_nonneg fun q _ => mul_self_nonneg _) (by norm_num)
  intro o
  have hpos : 0 < (∑ q, (h' q - (∑ q, h' q) * (1 / 1024)) * (h' q - (∑ q, h' q) * (1 / 1024)))
      * (1 / 1024 : ℝ) + e := add_pos_of_nonneg_of_pos hv0 he
  refine ⟨(h' o - (∑ q, h' q) * (1 / 1024))
    * (Real.sqrt ((∑ q, (h' q - (∑ q, h' q) * (1 / 1024)) * (h' q - (∑ q, h' q) * (1 / 1024)))
      * (1 / 1024 : ℝ) + e))⁻¹ * g' o + b' o, ?_⟩
  simp only [ln, hvar, hmean, hce, hh', hg', hb', ← EReal.coe_add, ← EReal.coe_sub]
  rw [Ideal.rsqrt_coe, if_neg (not_lt.mpr hpos.le), if_neg hpos.ne']
  simp only [← EReal.coe_mul, ← EReal.coe_add]

-- Layers that agree on real rows and keep rows real give equal blocks, again real.
private theorem block_eq (L0 L1 L2 L0' L1' L2' : Row → Row)
    (h0 : ∀ y : Row, (∀ i, IsR (y i)) → L0 y = L0' y ∧ ∀ o, IsR (L0' y o))
    (h1 : ∀ y : Row, (∀ i, IsR (y i)) → L1 y = L1' y ∧ ∀ o, IsR (L1' y o))
    (h2 : ∀ y : Row, (∀ i, IsR (y i)) → L2 y = L2' y ∧ ∀ o, IsR (L2' y o))
    (x : Row) (hx : ∀ i, IsR (x i)) :
    block L0 L1 L2 x = block L0' L1' L2' x ∧ ∀ o, IsR (block L0' L1' L2' x o) := by
  obtain ⟨e0, r0⟩ := h0 x hx
  obtain ⟨e1, r1⟩ := h1 _ (relu_isR r0)
  obtain ⟨e2, r2⟩ := h2 _ (relu_isR r1)
  unfold block
  rw [e0, e1, e2]
  exact ⟨rfl, radd_isR r2 hx⟩

-- The two networks agree on real data, block by block.
theorem netK_eq_netR (W : Fin 12 → Mat) (A : Fin 12 → MatA) (B : Fin 12 → MatB) (g b : Fin 2 → Row) (x : Row)
    (hW : ∀ l o i, IsR (W l o i)) (hA : ∀ l r i, IsR (A l r i)) (hB : ∀ l o r, IsR (B l o r))
    (hg : ∀ k i, IsR (g k i)) (hb : ∀ k i, IsR (b k i)) (hx : ∀ i, IsR (x i)) :
    netK W A B g b x = netR W A B g b x := by
  have hL : ∀ (l : Fin 12) (y : Row), (∀ i, IsR (y i)) →
      lin (fold (W l) (A l) (B l)) y = linLR (W l) (A l) (B l) y ∧ ∀ o, IsR (linLR (W l) (A l) (B l) y o) :=
    fun l y hy => lin_fold_eq _ _ _ y (hW l) (hA l) (hB l) hy
  simp only [netK, netR, net]
  obtain ⟨e1, r1⟩ := block_eq _ _ _ _ _ _ (hL 0) (hL 1) (hL 2) x hx
  have r1' := ln_isR (g 0) (b 0) _ (hg 0) (hb 0) r1
  obtain ⟨e2, r2⟩ := block_eq _ _ _ _ _ _ (hL 3) (hL 4) (hL 5) _ r1'
  obtain ⟨e3, r3⟩ := block_eq _ _ _ _ _ _ (hL 6) (hL 7) (hL 8) _ r2
  have r3' := ln_isR (g 1) (b 1) _ (hg 1) (hb 1) r3
  obtain ⟨e4, _⟩ := block_eq _ _ _ _ _ _ (hL 9) (hL 10) (hL 11) _ r3'
  rw [e1, e2, e3, e4]

end QNet

end
-- ==== Proof.PreReal.lean ====
import proofs.«416238_j53798760350388_3_alg».proof.Pre_finite_inputs
import proofs.«416238_j53798760350388_3_alg».proof.Proof.Gen.Pre_finite_inputs
import proofs.«416238_j53798760350388_3_alg».proof.Proof.Spec
import Idealize.ShloMosaic.Lib.ValueIdx
import Idealize.ShloMosaic.Lib.ReduceAll

noncomputable section

namespace Cert.PreReal

open Idealize.ShloMosaic Idealize.ShloMosaic.ValueIdx Cert.Pre_finite_inputs

theorem inf_word : Ideal.ofBits .f32 0x7F800000#32 = (⊤ : EReal) := by
  simp [Ideal.ofBits, Ideal.ieee]

-- An extended real whose absolute value is below +∞ is a real number.
theorem isR_of_abs_lt_top (x : EReal) (h : max x (-x) < (⊤ : EReal)) : QNet.IsR x := by
  induction x using EReal.rec with
  | bot => simp at h
  | coe r => exact ⟨r, rfl⟩
  | top => simp at h

theorem isR_of_entry {S : Shape} (bc : S_.BroadcastsInDim S (![] : Fin 0 → Fin S.rank))
    (a : FVec Ideal S .f32) (j : S.Idx)
    (h : cmpf .olt (Host.absf a) (broadcastInDim S ![] bc (constant (F := Ideal) S_ .f32 0x7F800000#32)) j = 1#1) :
    QNet.IsR (a j) := by
  have h' : Ideal.cmp .olt (max (a j) (-(a j))) (Ideal.ofBits .f32 0x7F800000#32) = 1#1 := h
  rw [inf_word] at h'
  refine isR_of_abs_lt_top (a j) ?_
  by_contra hn
  simp [Ideal.cmp, hn] at h'

instance : Subsingleton S_.Idx := ⟨fun a b => funext fun d => d.elim0⟩

theorem isR_of_all {S : Shape} {axes : List (Fin S.rank)}
    (bc : S_.BroadcastsInDim S (![] : Fin 0 → Fin S.rank)) (rt : S.ReducesTo axes S_) (hu : 0 < S_.numel)
    (a : FVec Ideal S .f32)
    (h : Host.reduce IntOp.andi
          (cmpf .olt (Host.absf a) (broadcastInDim S ![] bc (constant (F := Ideal) S_ .f32 0x7F800000#32)))
          (constantI S_ 1 1#1) rt hu ix0 = 1#1) :
    ∀ j, QNet.IsR (a j) :=
  fun j => isR_of_entry bc a j (Host.reduce_andi_all _ _ rt hu ix0 h j)

theorem and_ix0 (x y : IVec S_ 1) (h : andi x y ix0 = 1#1) : x ix0 = 1#1 ∧ y ix0 = 1#1 :=
  IntOp.andi_eq_one.1 h

-- The precondition is the conjunction, over the six float inputs, of "every entry is finite".
theorem isR_of_fn [Cert.Pre_finite_inputs.Facts]
    (a0 : FVec Ideal S4096x1024 .f32) (a1 : IVec S12x8192x64 32) (a2 : FVec Ideal S12x8192x1 .f32)
    (a3 : FVec Ideal S12x4x1024 .f32) (a4 : FVec Ideal S12x1024x4 .f32) (a5 a6 : FVec Ideal S2x1024 .f32)
    (h : Cert.Pre_finite_inputs.fn (F := Ideal) a0 a1 a2 a3 a4 a5 a6 = (fun _ => 1#1)) :
    (∀ j, QNet.IsR (a0 j)) ∧ (∀ j, QNet.IsR (a2 j)) ∧ (∀ j, QNet.IsR (a3 j)) ∧ (∀ j, QNet.IsR (a4 j))
      ∧ (∀ j, QNet.IsR (a5 j)) ∧ (∀ j, QNet.IsR (a6 j)) := by
  have h0 := congrFun h ValueIdx.ix0
  dsimp only [fn, fn_part1] at h0
  obtain ⟨h0, h6⟩ := and_ix0 _ _ h0
  obtain ⟨h0, h5⟩ := and_ix0 _ _ h0
  obtain ⟨h0, h4⟩ := and_ix0 _ _ h0
  obtain ⟨h0, h3⟩ := and_ix0 _ _ h0
  obtain ⟨h0, h2⟩ := and_ix0 _ _ h0
  exact ⟨isR_of_all _ _ _ a0 h0, isR_of_all _ _ _ a2 h2, isR_of_all _ _ _ a3 h3, isR_of_all _ _ _ a4 h4,
    isR_of_all _ _ _ a5 h5, isR_of_all _ _ _ a6 h6⟩

end Cert.PreReal

end
-- ==== Proof.KRow.lean ====
import proofs.«416238_j53798760350388_3_alg».proof.Proof.Gen.KernelIdeal.Frame
import proofs.«416238_j53798760350388_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRow

open Cert.KernelIdeal Cert.KernelIdeal.Gen Idealize.ShloMosaic Idealize.ShloMosaic.ValueIdx
open scoped BigOperators

def row {φ : FTy} (v : FVec Ideal S256x1024 φ) (p : Fin 256) : QNet.Row := fun i => v (ix2 p i)

theorem row_apply {φ : FTy} (v : FVec Ideal S256x1024 φ) (p : Fin 256) (i : Fin 1024) : row v p i = v (ix2 p i) := rfl

def mat (w : FVec Ideal S1x1024x1024 .bf16) : QNet.Mat := fun o i => w (ix3 (0 : Fin 1) o i)

def vrow (g : FVec Ideal S1x1024 .f32) : QNet.Row := fun j => g (ix2 (0 : Fin 1) j)

theorem lhs_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem lhs_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem rhs_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

-- Row p of a product against the rows of a weight, from a zero start, is the dense layer of row p.
theorem row_matmul {φ : FTy} (h : FVec Ideal S256x1024 φ) (w : FVec Ideal S1x1024x1024 .bf16) (p : Fin 256) :
    row (matmul dot_S256x1024_S1024x1024_S256x1024_1_1_0_0_n_n none h
        (shapeCast S1024x1024 w shapeCasts_S1x1024x1024_S1024x1024) (constant (F := Ideal) S256x1024 .f32 0x00000000#32)) p
      = QNet.lin (mat w) (row h p) := by
  funext o
  show matmul dot_S256x1024_S1024x1024_S256x1024_1_1_0_0_n_n none h
        (shapeCast S1024x1024 w shapeCasts_S1x1024x1024_S1024x1024) (constant (F := Ideal) S256x1024 .f32 0x00000000#32) (ix2 p o)
      = ∑ i : Fin 1024, h (ix2 p i) * w (ix3 (0 : Fin 1) o i)
  simp only [matmul]
  rw [Ideal.matmul_constant_zero_apply,
    ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p o)
      ((contrEquiv1 dot_S256x1024_S1024x1024_S256x1024_1_1_0_0_n_n 1024 rfl rfl).symm k) = ix2 p k :=
    funext fun a => Fin.ext (by
      match a with
      | ⟨0, _⟩ => exact lhs_0 _ _
      | ⟨1, _⟩ => exact (lhs_1 _ _).trans hk)
  have er : dot_S256x1024_S1024x1024_S256x1024_1_1_0_0_n_n.rhsIdx (ix2 p o)
      ((contrEquiv1 dot_S256x1024_S1024x1024_S256x1024_1_1_0_0_n_n 1024 rfl rfl).symm k) = ix2 o k :=
    funext fun a => Fin.ext (by
      match a with
      | ⟨0, _⟩ => exact rhs_0 _ _
      | ⟨1, _⟩ => exact (rhs_1 _ _).trans hk)
  rw [el, er, shapeCast_1ab_ab_apply]

theorem row_relu (v : FVec Ideal S256x1024 .f32) (p : Fin 256) :
    row (maximumf v (broadcast S256x1024 (Scalar.ofBits (F := Ideal) .f32 0x00000000#32))) p = QNet.relu (row v p) := by
  funext o
  show max (v (ix2 p o)) (Ideal.ofBits .f32 0x00000000#32) = max (v (ix2 p o)) 0
  rw [Ideal.ofBits_zero_f32]

theorem row_truncf (v : FVec Ideal S256x1024 .f32) (p : Fin 256) :
    row (truncf .bf16 v bitsLt_bf16_f32) p = row v p := rfl

theorem row_addf (a b : FVec Ideal S256x1024 .f32) (p : Fin 256) :
    row (addf a b) p = QNet.radd (row a p) (row b p) := rfl

theorem rowsum_apply (v : FVec Ideal S256x1024 .f32) (p : Fin 256) :
    multiReduction (F := Ideal) .add [1] S256 v 0x00000000#32 reduces_S256x1024_S256 (.inl rfl) rfl (ix1 p)
      = ∑ k : Fin 1024, v (ix2 p k) := by
  refine (Ideal.multiReduction_add_single v 0x00000000#32 reduces_S256x1024_S256 (.inl rfl) rfl (ix1 p)).trans ?_
  refine Finset.sum_congr rfl fun k _ => congrArg v ?_
  funext a
  apply Fin.ext
  match a with
  | ⟨0, _⟩ => rfl
  | ⟨1, _⟩ => rfl

theorem col_apply {α : Type} (x : S256.Idx → α) (p : Fin 256) (u : Fin 1) :
    shapeCast S256x1 x shapeCasts_S256_S256x1 (ix2 p u) = x (ix1 p) :=
  shapeCast_apply x shapeCasts_S256_S256x1 _ _ (by
    have hu : u.val = 0 := by omega
    rw [Shape.rowMajor_val_one, Shape.rowMajor_val_two]
    show p.val = p.val * 1 + u.val
    rw [hu, Nat.mul_one, Nat.add_zero])

theorem colb_apply {α : Type} (x : S256x1.Idx → α) (p : Fin 256) (q : Fin 1024) :
    broadcastTo S256x1024 x broadcasts_S256x1_S256x1024 (ix2 p q) = x (ix2 p (0 : Fin 1)) := by
  refine broadcastTo_apply x broadcasts_S256x1_S256x1024 (ix2 p q) (ix2 p (0 : Fin 1)) fun ax => ?_
  match ax with
  | ⟨0, _⟩ => rfl
  | ⟨1, _⟩ => rfl

theorem row_centre (v : FVec Ideal S256x1024 .f32) (p : Fin 256) :
    row (subf v (broadcastTo S256x1024
        (divf (shapeCast S256x1 (multiReduction (F := Ideal) .add [1] S256 v 0x00000000#32 reduces_S256x1024_S256 (.inl rfl) rfl) shapeCasts_S256_S256x1)
          (broadcast S256x1 (Scalar.ofBits (F := Ideal) .f32 0x44800000#32))) broadcasts_S256x1_S256x1024)) p
      = fun o => row v p o - QNet.mean (row v p) := by
  funext o
  show v (ix2 p o) - broadcastTo S256x1024 _ broadcasts_S256x1_S256x1024 (ix2 p o) = _
  rw [colb_apply]
  show v (ix2 p o) - Ideal.div (shapeCast S256x1 _ shapeCasts_S256_S256x1 (ix2 p (0 : Fin 1))) (Ideal.ofBits .f32 0x44800000#32) = _
  rw [col_apply, rowsum_apply]
  rfl

theorem rstd_apply (c : FVec Ideal S256x1024 .f32) (p : Fin 256) (u : Fin 1) :
    rsqrt (addf (divf (shapeCast S256x1 (multiReduction (F := Ideal) .add [1] S256 (mulf c c) 0x00000000#32 reduces_S256x1024_S256 (.inl rfl) rfl) shapeCasts_S256_S256x1)
          (broadcast S256x1 (Scalar.ofBits (F := Ideal) .f32 0x44800000#32)))
        (broadcast S256x1 (Scalar.ofBits (F := Ideal) .f32 0x3727C5AC#32))) (ix2 p u)
      = Ideal.rsqrt (Ideal.div (∑ q : Fin 1024, row c p q * row c p q) QNet.c1024 + QNet.ceps) := by
  show Ideal.rsqrt (Ideal.div (shapeCast S256x1 _ shapeCasts_S256_S256x1 (ix2 p u)) (Ideal.ofBits .f32 0x44800000#32)
      + Ideal.ofBits .f32 0x3727C5AC#32) = _
  rw [col_apply, rowsum_apply]
  rfl

theorem row_scale (c : FVec Ideal S256x1024 .f32) (r : FVec Ideal S256x1 .f32) (g b : FVec Ideal S1x1024 .f32) (p : Fin 256) :
    row (addf (mulf (mulf c (broadcastTo S256x1024 r broadcasts_S256x1_S256x1024))
        (broadcastTo S256x1024 g broadcasts_S1x1024_S256x1024)) (broadcastTo S256x1024 b broadcasts_S1x1024_S256x1024)) p
      = fun o => row c p o * r (ix2 p (0 : Fin 1)) * vrow g o + vrow b o := by
  funext o
  show c (ix2 p o) * broadcastTo S256x1024 r broadcasts_S256x1_S256x1024 (ix2 p o)
      * broadcastTo S256x1024 g broadcasts_S1x1024_S256x1024 (ix2 p o)
      + broadcastTo S256x1024 b broadcasts_S1x1024_S256x1024 (ix2 p o) = _
  rw [colb_apply, broadcastTo_1b_ab_apply, broadcastTo_1b_ab_apply]
  rfl

-- The normalisation with its variance spelt out as the mean of squared deviations is `QNet.ln`, by definition.
theorem ln_eq (g b h : QNet.Row) :
    (fun o => (h o - QNet.mean h) * Ideal.rsqrt (Ideal.div (∑ q : Fin 1024, (h q - QNet.mean h) * (h q - QNet.mean h)) QNet.c1024 + QNet.ceps) * g o + b o)
      = QNet.ln g b h := rfl

theorem row_pay2 (v0 : FVec Ideal S256x1024 .f32) (w0 w1 w2 : FVec Ideal S1x1024x1024 .bf16) (p : Fin 256) :
    row (k0_pay2 (F := Ideal) v0 w0 w1 w2) p
      = fun o => QNet.block (QNet.lin (mat w0)) (QNet.lin (mat w1)) (QNet.lin (mat w2)) (row v0 p) o
          - QNet.mean (QNet.block (QNet.lin (mat w0)) (QNet.lin (mat w1)) (QNet.lin (mat w2)) (row v0 p)) := by
  simp only [k0_pay2]
  rw [row_centre, row_addf, row_matmul, row_truncf, row_relu, row_matmul, row_truncf, row_relu, row_matmul, row_truncf]
  rfl

theorem pay3_apply (v0 : FVec Ideal S256x1024 .f32) (w0 w1 w2 : FVec Ideal S1x1024x1024 .bf16) (p : Fin 256) (u : Fin 1) :
    k0_pay3 (F := Ideal) v0 w0 w1 w2 (ix2 p u)
      = Ideal.rsqrt (Ideal.div (∑ q : Fin 1024, row (k0_pay2 (F := Ideal) v0 w0 w1 w2) p q * row (k0_pay2 (F := Ideal) v0 w0 w1 w2) p q) QNet.c1024 + QNet.ceps) := by
  simp only [k0_pay3]
  exact rstd_apply _ p u

theorem row_pay4 (g b : FVec Ideal S1x1024 .f32) (c : FVec Ideal S256x1024 .f32) (r : FVec Ideal S256x1 .f32)
    (w3 w4 w5 : FVec Ideal S1x1024x1024 .bf16) (p : Fin 256) :
    row (k0_pay4 (F := Ideal) g b c r w3 w4 w5) p
      = QNet.block (QNet.lin (mat w3)) (QNet.lin (mat w4)) (QNet.lin (mat w5))
          (fun o => row c p o * r (ix2 p (0 : Fin 1)) * vrow g o + vrow b o) := by
  simp only [k0_pay4]
  rw [row_addf, row_matmul, row_truncf, row_relu, row_matmul, row_truncf, row_relu, row_matmul, row_truncf, row_scale]
  rfl

theorem row_pay5 (g b : FVec Ideal S1x1024 .f32) (c : FVec Ideal S256x1024 .f32) (r : FVec Ideal S256x1 .f32)
    (w3 w4 w5 w6 w7 : FVec Ideal S1x1024x1024 .bf16) (p : Fin 256) :
    row (k0_pay5 (F := Ideal) g b c r w3 w4 w5 w6 w7) p
      = QNet.relu (QNet.lin (mat w7) (QNet.relu (QNet.lin (mat w6) (row (k0_pay4 (F := Ideal) g b c r w3 w4 w5) p)))) := by
  simp only [k0_pay5]
  rw [row_truncf, row_relu, row_matmul, row_truncf, row_relu, row_matmul, row_truncf]

theorem row_pay6 (v56 : FVec Ideal S256x1024 .f32) (v69 : FVec Ideal S256x1024 .bf16) (w8 : FVec Ideal S1x1024x1024 .bf16)
    (g b : FVec Ideal S1x1024 .f32) (p : Fin 256) :
    row (k0_pay6 (F := Ideal) v56 v69 w8 g b) p
      = QNet.ln (vrow g) (vrow b) (QNet.radd (QNet.lin (mat w8) (row v69 p)) (row v56 p)) := by
  simp only [k0_pay6]
  rw [row_scale]
  funext o
  rw [rstd_apply, row_centre, row_addf, row_matmul]
  rfl

theorem row_pay7 (v56 : FVec Ideal S256x1024 .f32) (v69 : FVec Ideal S256x1024 .bf16) (w8 : FVec Ideal S1x1024x1024 .bf16)
    (g b : FVec Ideal S1x1024 .f32) (w9 w10 : FVec Ideal S1x1024x1024 .bf16) (p : Fin 256) :
    row (k0_pay7 (F := Ideal) v56 v69 w8 g b w9 w10) p
      = QNet.lin (mat w10) (QNet.relu (QNet.lin (mat w9) (row (k0_pay6 (F := Ideal) v56 v69 w8 g b) p))) := by
  simp only [k0_pay7]
  rw [row_matmul, row_truncf, row_relu, row_matmul, row_truncf]

theorem row_pay1 (v95 v105 : FVec Ideal S256x1024 .f32) (w11 : FVec Ideal S1x1024x1024 .bf16) (p : Fin 256) :
    row (k0_pay1 (F := Ideal) v95 v105 (k0_pay8 (F := Ideal)) w11) p
      = QNet.radd (QNet.lin (mat w11) (QNet.relu (row v105 p))) (row v95 p) := by
  simp only [k0_pay1, k0_pay8]
  rw [row_addf, row_matmul, row_truncf, row_relu]

theorem row_body (x0 : FVec Ideal S256x1024 .f32) (w0 w1 w2 w3 w4 w5 w6 w7 w8 w9 w10 w11 : FVec Ideal S1x1024x1024 .bf16)
    (g0 b0 g1 b1 : FVec Ideal S1x1024 .f32) (p : Fin 256) :
    row (k0_pay1 (F := Ideal)
        (k0_pay6 (k0_pay4 g0 b0 (k0_pay2 x0 w0 w1 w2) (k0_pay3 x0 w0 w1 w2) w3 w4 w5)
          (k0_pay5 g0 b0 (k0_pay2 x0 w0 w1 w2) (k0_pay3 x0 w0 w1 w2) w3 w4 w5 w6 w7) w8 g1 b1)
        (k0_pay7 (k0_pay4 g0 b0 (k0_pay2 x0 w0 w1 w2) (k0_pay3 x0 w0 w1 w2) w3 w4 w5)
          (k0_pay5 g0 b0 (k0_pay2 x0 w0 w1 w2) (k0_pay3 x0 w0 w1 w2) w3 w4 w5 w6 w7) w8 g1 b1 w9 w10)
        (k0_pay8 (F := Ideal)) w11) p
      = QNet.block (QNet.lin (mat w9)) (QNet.lin (mat w10)) (QNet.lin (mat w11))
          (QNet.ln (vrow g1) (vrow b1)
            (QNet.block (QNet.lin (mat w6)) (QNet.lin (mat w7)) (QNet.lin (mat w8))
              (QNet.block (QNet.lin (mat w3)) (QNet.lin (mat w4)) (QNet.lin (mat w5))
                (QNet.ln (vrow g0) (vrow b0)
                  (QNet.block (QNet.lin (mat w0)) (QNet.lin (mat w1)) (QNet.lin (mat w2)) (row x0 p)))))) := by
  rw [row_pay1, row_pay7, row_pay6, row_pay5, row_pay4, pay3_apply, row_pay2]
  rfl

theorem zeros2 : (![0, 0] : Fin 2 → Nat) = fun _ => 0 := funext fun a => by fin_cases a <;> rfl

theorem mat_ld (x1 : Vec Ideal S12x1024x1024 .bf16) (k : Nat) (hk : k < 12)
    (inb : ∀ a, (![k, 0, 0] : Fin 3 → Nat) a + S1x1024x1024.size a ≤ S12x1024x1024.size a) :
    mat (View.ld x1 (Rect.unit (s := S12x1024x1024) ![k, 0, 0] S1x1024x1024.size inb))
      = fun o i => x1 (ix3 (⟨k, hk⟩ : Fin 12) o i) := by
  funext o i
  show x1 ((Rect.unit (s := S12x1024x1024) ![k, 0, 0] S1x1024x1024.size inb).idx (ix3 (0 : Fin 1) o i)) = _
  refine congrArg x1 (funext fun a => Fin.ext ?_)
  match a with
  | ⟨0, _⟩ => show k + 1 * 0 = k; omega
  | ⟨1, _⟩ => show 0 + 1 * o.val = o.val; omega
  | ⟨2, _⟩ => show 0 + 1 * i.val = i.val; omega

theorem vrow_ld (x : Vec Ideal S2x1024 .f32) (k : Nat) (hk : k < 2)
    (inb : ∀ a, (![k, 0] : Fin 2 → Nat) a + S1x1024.size a ≤ S2x1024.size a) :
    vrow (View.ld x (Rect.unit (s := S2x1024) ![k, 0] S1x1024.size inb)) = fun j => x (ix2 (⟨k, hk⟩ : Fin 2) j) := by
  funext j
  show x ((Rect.unit (s := S2x1024) ![k, 0] S1x1024.size inb).idx (ix2 (0 : Fin 1) j)) = _
  refine congrArg x (funext fun a => Fin.ext ?_)
  match a with
  | ⟨0, _⟩ => show k + 1 * 0 = k; omega
  | ⟨1, _⟩ => show 0 + 1 * j.val = j.val; omega

-- Every operation of the body acts on each row by itself, so entry (p, q) of the stored block is entry q of the network of row p of the loaded block.
theorem out0_4_apply (x0 : Vec Ideal S256x1024 .f32) (x1 : Vec Ideal S12x1024x1024 .bf16)
    (x2 x3 : Vec Ideal S2x1024 .f32) (p : Fin 256) (q : Fin 1024) :
    out0_4 (F := Ideal) x0 x1 x2 x3 (ix2 p q)
      = QNet.net (fun (l : Fin 12) => QNet.lin (fun o i => x1 (ix3 l o i)))
          (fun k j => x2 (ix2 k j)) (fun k j => x3 (ix2 k j)) (fun i => x0 (ix2 p i)) q := by
  unfold out0_4
  rw [View.canon_unit_zero zeros2]
  refine (congrFun (row_body (View.ld x0 r0_0) (View.ld x1 r0_1) (View.ld x1 r0_2) (View.ld x1 r0_3)
    (View.ld x1 r0_5) (View.ld x1 r0_6) (View.ld x1 r0_7) (View.ld x1 r0_8) (View.ld x1 r0_9) (View.ld x1 r0_10)
    (View.ld x1 r0_12) (View.ld x1 r0_13) (View.ld x1 r0_14)
    (View.ld x2 r0_4) (View.ld x3 r0_4) (View.ld x2 r0_11) (View.ld x3 r0_11) p) q).trans ?_
  rw [mat_ld x1 0 (by decide), mat_ld x1 1 (by decide), mat_ld x1 2 (by decide), mat_ld x1 3 (by decide),
    mat_ld x1 4 (by decide), mat_ld x1 5 (by decide), mat_ld x1 6 (by decide), mat_ld x1 7 (by decide),
    mat_ld x1 8 (by decide), mat_ld x1 9 (by decide), mat_ld x1 10 (by decide), mat_ld x1 11 (by decide),
    vrow_ld x2 0 (by decide), vrow_ld x3 0 (by decide), vrow_ld x2 1 (by decide), vrow_ld x3 1 (by decide),
    View.ld_unit_zero zeros2]
  rfl

end Cert.KernelIdeal.KRow

end
-- ==== Proof.Deq.lean ====
import Idealize.ShloMosaic.PureOps.Ideal

noncomputable section

namespace QNet

open Idealize.ShloMosaic

variable {F : FTy → Type} [FloatOps F]

-- A word carries two 4-bit fields: bits 0–3 and bits 4–7.
def field (w : BitVec 32) (s : Fin 2) : BitVec 32 :=
  if s.val = 0 then IntOp.andi w 15#32 else IntOp.andi (IntOp.shrsi .host w 4#32) 15#32

-- Field n stands for (n / 15 · 2 − 1) · norm.
def deq (w : BitVec 32) (s : Fin 2) (n : F .f32) : F .f32 :=
  FloatOps.mulf
    (FloatOps.subf
      (FloatOps.mulf
        (FloatOps.hostDivf (FloatOps.sitofp .f32 (field w s)) (FloatOps.ofBits .f32 0x41700000#32))
        (FloatOps.ofBits .f32 0x40000000#32))
      (FloatOps.ofBits .f32 0x3F800000#32))
    n

end QNet

end
-- ==== Proof.KHost.lean ====
import proofs.«416238_j53798760350388_3_alg».proof.Proof.Gen.KernelIdeal.Frame
import proofs.«416238_j53798760350388_3_alg».proof.Proof.Spec
import proofs.«416238_j53798760350388_3_alg».proof.Proof.Deq
import Idealize.ShloMosaic.Lib.ValueIdx
import Idealize.ShloMosaic.Lib.Pipeline.Value
import Idealize.ShloMosaic.Lib.StableHlo.Run
import Idealize.ShloMosaic.Lib.StackMember
import Idealize.ShloMosaic.PureOps.Ideal.Laws

noncomputable section

namespace Cert.KernelIdeal.KHost

open Cert.KernelIdeal Cert.KernelIdeal.Gen Idealize.ShloMosaic Idealize.ShloMosaic.ValueIdx Idealize.ShloMosaic.TcCoe Idealize.SL.Sem
open QNet (field deq)
open scoped BigOperators

variable {F : FTy → Type} [FloatOps F]

def dq3 (q4 : IVec S12x8192x64 32) (nrm : FVec F S12x8192x1 .f32) : FVec F S12x1024x1024 .f32 :=
  shapeCast S12x1024x1024
    (mulf
      (subf
        (mulf
          (Host.divf
            (sitofp .f32
              (shapeCast S12x8192x128
                (concatenate S12x8192x64x2 3
                  [⟨S12x8192x64x1, broadcastInDim S12x8192x64x1 ![0, 1, 2] bcast_S12x8192x64_S12x8192x64x1_0_1_2
                      (andi q4 (broadcastInDim S12x8192x64 ![] bcast_S_S12x8192x64 (constantI S_ 32 15#32)))⟩,
                   ⟨S12x8192x64x1, broadcastInDim S12x8192x64x1 ![0, 1, 2] bcast_S12x8192x64_S12x8192x64x1_0_1_2
                      (andi (Host.shrsi q4 (broadcastInDim S12x8192x64 ![] bcast_S_S12x8192x64 (constantI S_ 32 4#32)))
                        (broadcastInDim S12x8192x64 ![] bcast_S_S12x8192x64 (constantI S_ 32 15#32)))⟩]
                  concatenates_S12x8192x64x1_S12x8192x64x1_S12x8192x64x2_d3)
                shapeCasts_S12x8192x64x2_S12x8192x128))
            (broadcastInDim S12x8192x128 ![] bcast_S_S12x8192x128 (constant S_ .f32 0x41700000#32)))
          (broadcastInDim S12x8192x128 ![] bcast_S_S12x8192x128 (constant S_ .f32 0x40000000#32)))
        (broadcastInDim S12x8192x128 ![] bcast_S_S12x8192x128 (constant S_ .f32 0x3F800000#32)))
      (broadcastInDim S12x8192x128 ![0, 1, 2] bcast_S12x8192x1_S12x8192x128_0_1_2 nrm))
    shapeCasts_S12x8192x128_S12x1024x1024

theorem widen_apply (x : IVec S12x8192x64 32) (l : Fin 12) (g : Fin 8192) (w : Fin 64) (u : Fin 1) :
    broadcastInDim S12x8192x64x1 ![0, 1, 2] bcast_S12x8192x64_S12x8192x64x1_0_1_2 x (ix4 l g w u) = x (ix3 l g w) :=
  broadcastInDim_apply _ _ x (ix4 l g w u) (ix3 l g w)
    (fun a => match a with | ⟨0, _⟩ => rfl | ⟨1, _⟩ => rfl | ⟨2, _⟩ => rfl)

theorem spread_apply (nrm : FVec F S12x8192x1 .f32) (l : Fin 12) (g : Fin 8192) (p : Fin 128) :
    broadcastInDim S12x8192x128 ![0, 1, 2] bcast_S12x8192x1_S12x8192x128_0_1_2 nrm (ix3 l g p) = nrm (ix3 l g 0) :=
  broadcastInDim_apply _ _ nrm (ix3 l g p) (ix3 l g 0)
    (fun a => match a with | ⟨0, _⟩ => rfl | ⟨1, _⟩ => rfl | ⟨2, _⟩ => rfl)

theorem fields_apply (q4 : IVec S12x8192x64 32) (l : Fin 12) (g : Fin 8192) (w : Fin 64) (s : Fin 2) :
    concatenate S12x8192x64x2 3
        [⟨S12x8192x64x1, broadcastInDim S12x8192x64x1 ![0, 1, 2] bcast_S12x8192x64_S12x8192x64x1_0_1_2
            (andi q4 (broadcastInDim S12x8192x64 ![] bcast_S_S12x8192x64 (constantI S_ 32 15#32)))⟩,
         ⟨S12x8192x64x1, broadcastInDim S12x8192x64x1 ![0, 1, 2] bcast_S12x8192x64_S12x8192x64x1_0_1_2
            (andi (Host.shrsi q4 (broadcastInDim S12x8192x64 ![] bcast_S_S12x8192x64 (constantI S_ 32 4#32)))
              (broadcastInDim S12x8192x64 ![] bcast_S_S12x8192x64 (constantI S_ 32 15#32)))⟩]
        concatenates_S12x8192x64x1_S12x8192x64x1_S12x8192x64x2_d3 (ix4 l g w s)
      = field (q4 (ix3 l g w)) s := by
  unfold field
  by_cases hs : s.val = 0
  · rw [if_pos hs]
    refine (concatenate_pair_apply_left (t := S12x8192x64x2) (s₁ := S12x8192x64x1) (s₂ := S12x8192x64x1) 3 _ _
      concatenates_S12x8192x64x1_S12x8192x64x1_S12x8192x64x2_d3 (ix4 l g w s) rfl (ix4 l g w (0 : Fin 1))
      (fun b => match b with | ⟨0, _⟩ => rfl | ⟨1, _⟩ => rfl | ⟨2, _⟩ => rfl | ⟨3, _⟩ => hs.symm)).trans ?_
    exact (widen_apply _ l g w 0).trans rfl
  · rw [if_neg hs]
    have hs1 : s.val = 1 := by omega
    refine (concatenate_pair_apply_right (t := S12x8192x64x2) (s₁ := S12x8192x64x1) (s₂ := S12x8192x64x1) 3 _ _
      concatenates_S12x8192x64x1_S12x8192x64x1_S12x8192x64x2_d3 (ix4 l g w s) rfl rfl (ix4 l g w (0 : Fin 1))
      (fun b => match b with
        | ⟨0, _⟩ => fun _ => rfl | ⟨1, _⟩ => fun _ => rfl | ⟨2, _⟩ => fun _ => rfl
        | ⟨3, _⟩ => fun h => absurd rfl h)
      (by show 0 + 1 = s.val; omega)).trans ?_
    exact (widen_apply _ l g w 0).trans rfl

-- Entry (l, o, i) of the unpacked weights is the scalar dequantisation of its word, field and norm.
theorem dq3_apply (q4 : IVec S12x8192x64 32) (nrm : FVec F S12x8192x1 .f32) (l : Fin 12) (o i : Fin 1024) :
    dq3 q4 nrm (ix3 l o i)
      = deq (q4 (ix3 l ⟨(o.val * 1024 + i.val) / 128, by omega⟩ ⟨(o.val * 1024 + i.val) % 128 / 2, by omega⟩))
          ⟨(o.val * 1024 + i.val) % 2, by omega⟩
          (nrm (ix3 l ⟨(o.val * 1024 + i.val) / 128, by omega⟩ 0)) := by
  have hg : (o.val * 1024 + i.val) / 128 < 8192 := by omega
  have hp : (o.val * 1024 + i.val) % 128 < 128 := by omega
  have hw : (o.val * 1024 + i.val) % 128 / 2 < 64 := by omega
  have hs : (o.val * 1024 + i.val) % 2 < 2 := by omega
  unfold dq3 deq
  refine (shapeCast_apply _ _ (ix3 l o i) (ix3 l ⟨_, hg⟩ ⟨_, hp⟩) (by
    rw [Shape.rowMajor_val_three, Shape.rowMajor_val_three]
    show (l.val * 8192 + (o.val * 1024 + i.val) / 128) * 128 + (o.val * 1024 + i.val) % 128
      = (l.val * 1024 + o.val) * 1024 + i.val
    omega)).trans ?_
  refine congrArg₂ FloatOps.mulf (congrArg₂ FloatOps.subf (congrArg₂ FloatOps.mulf
    (congrArg₂ FloatOps.hostDivf (congrArg (FloatOps.sitofp .f32) ?_) rfl) rfl) rfl) ?_
  · refine (shapeCast_apply _ _ (ix3 l ⟨_, hg⟩ ⟨_, hp⟩) (ix4 l ⟨_, hg⟩ ⟨_, hw⟩ ⟨_, hs⟩) (by
      rw [Shape.rowMajor_val_four, Shape.rowMajor_val_three]
      show ((l.val * 8192 + (o.val * 1024 + i.val) / 128) * 64 + (o.val * 1024 + i.val) % 128 / 2) * 2
          + (o.val * 1024 + i.val) % 2
        = (l.val * 8192 + (o.val * 1024 + i.val) / 128) * 128 + (o.val * 1024 + i.val) % 128
      omega)).trans ?_
    exact fields_apply q4 l _ _ _
  · exact spread_apply nrm l _ _

theorem ofBits_fifteen : Ideal.ofBits .f32 0x41700000#32 = ((15 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem deq_isR (w : BitVec 32) (s : Fin 2) (n : Ideal .f32) (hn : QNet.IsR n) : QNet.IsR (deq (F := Ideal) w s n) := by
  obtain ⟨r, rfl⟩ := hn
  refine ⟨(((field w s).toInt : ℝ) * (1 / 15 : ℝ) * 2 - 1) * r, ?_⟩
  show (Ideal.div ((((field w s).toInt : ℝ)) : EReal) (Ideal.ofBits .f32 0x41700000#32) * Ideal.ofBits .f32 0x40000000#32
      - Ideal.ofBits .f32 0x3F800000#32) * (r : EReal) = _
  rw [ofBits_fifteen, ofBits_two, ofBits_one, Ideal.div_coe (by norm_num)]
  simp only [← EReal.coe_mul, ← EReal.coe_sub]

-- A dequantised weight is real when its norm is.
theorem dq3_isR (q4 : IVec S12x8192x64 32) (nrm : FVec Ideal S12x8192x1 .f32) (hn : ∀ j, QNet.IsR (nrm j)) :
    ∀ j, QNet.IsR (dq3 (F := Ideal) q4 nrm j) := by
  intro j
  obtain ⟨l, o, i, rfl⟩ : ∃ (l : Fin 12) (o i : Fin 1024), j = ix3 l o i := ⟨j 0, j 1, j 2, eq_ix3 j⟩
  rw [dq3_apply]
  exact deq_isR _ _ _ (hn _)

variable (m : (ℓ : Loc nD τ sig) → Buf (Elt Ideal) ℓ)

theorem V_main_v22_eq (c : Dev nD) :
    (V m c main_v22 : S12x1024x1024.Idx → EReal)
      = truncf .bf16
          (addf (dq3 (F := Ideal) (m ((c : Thread nD τ).loc main_arg1)) (m ((c : Thread nD τ).loc main_arg2)))
            (Host.dotGeneral (F := Ideal) (φ₁ := .f32) (φ₂ := .f32) dot_S12x1024x4_S12x4x1024_S12x1024x1024_2_1_1_2_0_0 none
              (m ((c : Thread nD τ).loc main_arg4)) (m ((c : Thread nD τ).loc main_arg3))))
          bitsLt_bf16_f32 := by
  dsimp only [Gen.V, Gen.hostOps0]
  after_results_simp
  rfl

-- Entry by entry, the weight array the body is given is the unpacked weight plus the rank-4 product B·A.
theorem V_main_v22_apply (c : Dev nD) (l : Fin 12) (o i : Fin 1024) :
    (V m c main_v22 : S12x1024x1024.Idx → EReal) (ix3 l o i)
      = QNet.fold (fun o i => dq3 (F := Ideal) (m ((c : Thread nD τ).loc main_arg1)) (m ((c : Thread nD τ).loc main_arg2)) (ix3 l o i))
          (fun r i => (m ((c : Thread nD τ).loc main_arg3) : S12x4x1024.Idx → EReal) (ix3 l r i))
          (fun o r => (m ((c : Thread nD τ).loc main_arg4) : S12x1024x4.Idx → EReal) (ix3 l o r)) o i := by
  refine (congrFun (V_main_v22_eq m c) (ix3 l o i)).trans ?_
  refine (truncf_apply (ψ := .bf16) _ bitsLt_bf16_f32 _).trans ((addf_apply _ _ _).trans ?_)
  unfold QNet.fold
  refine congrArg₂ (· + ·) rfl ?_
  exact StackMember.dotGeneral_stack_apply dot_S12x1024x4_S12x4x1024_S12x1024x1024_2_1_1_2_0_0_wf none _ _ l o i

end Cert.KernelIdeal.KHost

end
-- ==== Proof.KFinal.lean ====
import proofs.«416238_j53798760350388_3_alg».proof.Proof.Gen.KernelIdeal.Value
import proofs.«416238_j53798760350388_3_alg».proof.Proof.Spec
import Idealize.ShloMosaic.Lib.ValueIdx
import Idealize.ShloMosaic.Lib.Pipeline.Value

noncomputable section

namespace Cert.KernelIdeal.KFinal

open Cert.KernelIdeal Cert.KernelIdeal.Gen Idealize.ShloMosaic Idealize.ShloMosaic.ValueIdx Idealize.ShloMosaic.TcCoe Idealize.SL.Sem
open scoped BigOperators

variable (m : (ℓ : Loc nD τ sig) → Buf (Elt Ideal) ℓ)

abbrev fA (c : Dev nD) : Fin 12 → QNet.MatA :=
  fun l r i => (m ((c : Thread nD τ).loc main_arg3) : S12x4x1024.Idx → EReal) (ix3 l r i)

abbrev fB (c : Dev nD) : Fin 12 → QNet.MatB :=
  fun l o r => (m ((c : Thread nD τ).loc main_arg4) : S12x1024x4.Idx → EReal) (ix3 l o r)

abbrev fg (c : Dev nD) : Fin 2 → QNet.Row :=
  fun k j => (m ((c : Thread nD τ).loc main_arg5) : S2x1024.Idx → EReal) (ix2 k j)

abbrev fb (c : Dev nD) : Fin 2 → QNet.Row :=
  fun k j => (m ((c : Thread nD τ).loc main_arg6) : S2x1024.Idx → EReal) (ix2 k j)

abbrev fX (c : Dev nD) (n : Fin 4096) : QNet.Row :=
  fun i => (m ((c : Thread nD τ).loc main_arg0) : S4096x1024.Idx → EReal) (ix2 n i)

abbrev G (Wd : Dev nD → Fin 12 → QNet.Mat) (c : Dev nD) : S4096x1024.Idx → EReal :=
  fun j => QNet.netK (Wd c) (fA m c) (fB m c) (fg m c) (fb m c) (fX m c ⟨(j 0).val, idx2_lt0 j⟩) ⟨(j 1).val, idx2_lt1 j⟩

theorem idx_facts : ∀ t : Fin cfg0.N,
    win0_0.index t (0 : Fin 2) = t.val ∧ win0_0.index t (1 : Fin 2) = 0
    ∧ win0_4.index t (0 : Fin 2) = t.val ∧ win0_4.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem iblk0_apply (c : Dev nD) (t : Fin cfg0.N) (p : Fin 256) (i : Fin 1024) (n : Fin 4096)
    (hn : n.val = 256 * t.val + p.val) :
    (iblk m c 0 t : S256x1024.Idx → EReal) (ix2 p i)
      = (m ((c : Thread nD τ).loc main_arg0) : S4096x1024.Idx → EReal) (ix2 n i) := by
  obtain ⟨e0, e1, -⟩ := idx_facts t
  unfold iblk
  rw [View.read_apply]
  show V m c main_arg0 (((cfg0.win 0).blk t).view.emb (ix2 p i)) = _
  rw [V_main_arg0]
  congr 1
  funext a
  apply Fin.ext
  match a with
  | ⟨0, _⟩ => show win0_0.index t (0 : Fin 2) * 256 + 1 * p.val = n.val; omega
  | ⟨1, _⟩ => show win0_0.index t (1 : Fin 2) * 1024 + 1 * i.val = i.val; omega

theorem iblk1_apply (c : Dev nD) (t : Fin cfg0.N) (l : Fin 12) (o i : Fin 1024) :
    (iblk m c 1 t : S12x1024x1024.Idx → EReal) (ix3 l o i)
      = (V m c main_v22 : S12x1024x1024.Idx → EReal) (ix3 l o i) := by
  obtain ⟨-, -, -, -, e0, e1, e2, -⟩ := idx_facts t
  unfold iblk
  rw [View.read_apply]
  show V m c main_v22 (((cfg0.win 1).blk t).view.emb (ix3 l o i)) = _
  congr 1
  funext a
  apply Fin.ext
  match a with
  | ⟨0, _⟩ => show win0_1.index t (0 : Fin 3) * 12 + 1 * l.val = l.val; omega
  | ⟨1, _⟩ => show win0_1.index t (1 : Fin 3) * 1024 + 1 * o.val = o.val; omega
  | ⟨2, _⟩ => show win0_1.index t (2 : Fin 3) * 1024 + 1 * i.val = i.val; omega

theorem iblk2_apply (c : Dev nD) (t : Fin cfg0.N) (k : Fin 2) (j : Fin 1024) :
    (iblk m c 2 t : S2x1024.Idx → EReal) (ix2 k j)
      = (m ((c : Thread nD τ).loc main_arg5) : S2x1024.Idx → EReal) (ix2 k j) := by
  obtain ⟨-, -, -, -, -, -, -, e0, e1, -⟩ := idx_facts t
  unfold iblk
  rw [View.read_apply]
  show V m c main_arg5 (((cfg0.win 2).blk t).view.emb (ix2 k j)) = _
  rw [V_main_arg5]
  congr 1
  funext a
  apply Fin.ext
  match a with
  | ⟨0, _⟩ => show win0_2.index t (0 : Fin 2) * 2 + 1 * k.val = k.val; omega
  | ⟨1, _⟩ => show win0_2.index t (1 : Fin 2) * 1024 + 1 * j.val = j.val; omega

theorem iblk3_apply (c : Dev nD) (t : Fin cfg0.N) (k : Fin 2) (j : Fin 1024) :
    (iblk m c 3 t : S2x1024.Idx → EReal) (ix2 k j)
      = (m ((c : Thread nD τ).loc main_arg6) : S2x1024.Idx → EReal) (ix2 k j) := by
  obtain ⟨-, -, -, -, -, -, -, -, -, e0, e1⟩ := idx_facts t
  unfold iblk
  rw [View.read_apply]
  show V m c main_arg6 (((cfg0.win 3).blk t).view.emb (ix2 k j)) = _
  rw [V_main_arg6]
  congr 1
  funext a
  apply Fin.ext
  match a with
  | ⟨0, _⟩ => show win0_3.index t (0 : Fin 2) * 2 + 1 * k.val = k.val; omega
  | ⟨1, _⟩ => show win0_3.index t (1 : Fin 2) * 1024 + 1 * j.val = j.val; omega

theorem out_row
    (hrow : ∀ (x0 : Vec Ideal S256x1024 .f32) (x1 : Vec Ideal S12x1024x1024 .bf16) (x2 x3 : Vec Ideal S2x1024 .f32)
        (p : Fin 256) (q : Fin 1024),
        out0_4 (F := Ideal) x0 x1 x2 x3 (ix2 p q)
          = QNet.net (fun (l : Fin 12) => QNet.lin (fun o i => x1 (ix3 l o i)))
              (fun k j => x2 (ix2 k j)) (fun k j => x3 (ix2 k j)) (fun i => x0 (ix2 p i)) q)
    (x0 : Vec Ideal S256x1024 .f32) (x1 : Vec Ideal S12x1024x1024 .bf16) (x2 x3 : Vec Ideal S2x1024 .f32)
    (y : S256x1024.Idx) :
    out0_4 (F := Ideal) x0 x1 x2 x3 y
      = QNet.net (fun (l : Fin 12) => QNet.lin (fun o i => x1 (ix3 l o i)))
          (fun k j => x2 (ix2 k j)) (fun k j => x3 (ix2 k j))
          (fun i => x0 (ix2 ⟨(y 0).val, idx2_lt0 y⟩ i)) ⟨(y 1).val, idx2_lt1 y⟩ := by
  obtain ⟨p, q, rfl⟩ : ∃ (p : Fin 256) (q : Fin 1024), y = ix2 p q := ⟨y 0, y 1, eq_ix2 y⟩
  exact hrow x0 x1 x2 x3 p q

theorem net_blk (Wd : Dev nD → Fin 12 → QNet.Mat)
    (hW : ∀ (c : Dev nD) (l : Fin 12) (o i : Fin 1024),
        (V m c main_v22 : S12x1024x1024.Idx → EReal) (ix3 l o i)
          = QNet.fold (Wd c l)
              (fun r i => (m ((c : Thread nD τ).loc main_arg3) : S12x4x1024.Idx → EReal) (ix3 l r i))
              (fun o r => (m ((c : Thread nD τ).loc main_arg4) : S12x1024x4.Idx → EReal) (ix3 l o r)) o i)
    (c : Dev nD) (t : Fin cfg0.N) (p : Fin 256) (q : Fin 1024) (n : Fin 4096) (hn : n.val = 256 * t.val + p.val) :
    QNet.net (fun (l : Fin 12) => QNet.lin (fun o i => (iblk m c 1 t : S12x1024x1024.Idx → EReal) (ix3 l o i)))
        (fun k j => (iblk m c 2 t : S2x1024.Idx → EReal) (ix2 k j))
        (fun k j => (iblk m c 3 t : S2x1024.Idx → EReal) (ix2 k j))
        (fun i => (iblk m c 0 t : S256x1024.Idx → EReal) (ix2 p i)) q
      = QNet.netK (Wd c) (fA m c) (fB m c) (fg m c) (fb m c) (fX m c n) q := by
  have hL : (fun (l : Fin 12) => QNet.lin (fun o i => (iblk m c 1 t : S12x1024x1024.Idx → EReal) (ix3 l o i)))
      = fun l => QNet.lin (QNet.fold (Wd c l) (fA m c l) (fB m c l)) := by
    funext l
    refine congrArg QNet.lin ?_
    funext o i
    exact (iblk1_apply m c t l o i).trans (hW c l o i)
  have hg : (fun k j => (iblk m c 2 t : S2x1024.Idx → EReal) (ix2 k j)) = fg m c := by
    funext k j; exact iblk2_apply m c t k j
  have hb : (fun k j => (iblk m c 3 t : S2x1024.Idx → EReal) (ix2 k j)) = fb m c := by
    funext k j; exact iblk3_apply m c t k j
  have hx : (fun i => (iblk m c 0 t : S256x1024.Idx → EReal) (ix2 p i)) = fX m c n := by
    funext i; exact iblk0_apply m c t p i n hn
  rw [hL, hg, hb, hx]
  rfl

-- Block t of the result is block t's rectangle read out of one whole-array function: the network applied to each input row.
theorem flushed_eq (Wd : Dev nD → Fin 12 → QNet.Mat)
    (hrow : ∀ (x0 : Vec Ideal S256x1024 .f32) (x1 : Vec Ideal S12x1024x1024 .bf16) (x2 x3 : Vec Ideal S2x1024 .f32)
        (p : Fin 256) (q : Fin 1024),
        out0_4 (F := Ideal) x0 x1 x2 x3 (ix2 p q)
          = QNet.net (fun (l : Fin 12) => QNet.lin (fun o i => x1 (ix3 l o i)))
              (fun k j => x2 (ix2 k j)) (fun k j => x3 (ix2 k j)) (fun i => x0 (ix2 p i)) q)
    (hW : ∀ (c : Dev nD) (l : Fin 12) (o i : Fin 1024),
        (V m c main_v22 : S12x1024x1024.Idx → EReal) (ix3 l o i)
          = QNet.fold (Wd c l)
              (fun r i => (m ((c : Thread nD τ).loc main_arg3) : S12x4x1024.Idx → EReal) (ix3 l r i))
              (fun o r => (m ((c : Thread nD τ).loc main_arg4) : S12x1024x4.Idx → EReal) (ix3 l o r)) o i)
    (c : Dev nD) (t : Fin cfg0.N) :
    (dats m 0 c).flushed 4 t = ((cfg0.win 4).blk t).view.read (Elt Ideal) (G m Wd c) := by
  rw [Value.flushed4]
  obtain ⟨-, -, e0, e1, -⟩ := idx_facts t
  funext y
  have hy0 : (y 0).val < 256 := (y 0).isLt
  have hy1 : (y 1).val < 1024 := (y 1).isLt
  rw [View.read_apply]
  show out0_4 (F := Ideal) (iblk m c 0 t) (iblk m c 1 t) (iblk m c 2 t) (iblk m c 3 t)
        ((cfg0.win 4).xinj (grid0.coords t) y)
      = G m Wd c (((cfg0.win 4).blk t).view.emb y)
  refine (out_row hrow (iblk m c 0 t) (iblk m c 1 t) (iblk m c 2 t) (iblk m c 3 t) _).trans ?_
  have hr0 : ((((cfg0.win 4).blk t).view.emb y) 0).val = 256 * t.val + (y 0).val := by
    show win0_4.index t (0 : Fin 2) * 256 + 1 * (y 0).val = _; omega
  have hr1 : ((((cfg0.win 4).blk t).view.emb y) 1).val = (y 1).val := by
    show win0_4.index t (1 : Fin 2) * 1024 + 1 * (y 1).val = _; omega
  refine (net_blk m Wd hW c t ⟨(y 0).val, hy0⟩ ⟨(y 1).val, hy1⟩
    ⟨((((cfg0.win 4).blk t).view.emb y) 0).val, idx2_lt0 _⟩ hr0).trans ?_
  exact congrArg _ (Fin.ext hr1.symm)

theorem mem_blk (t : Fin cfg0.N) (i : S4096x1024.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v23).slice (win0_4.rect t)).set ↔ _
  rw [View.set_slice_whole, Rect.mem_set_unit]
  exact Iff.rfl

-- Every index of the result lies in one of the sixteen blocks of 256 rows.
theorem cover (i : S4096x1024.Idx) :
    ∃ t : Fin cfg0.N, (cfg0.win 4).flush t = true ∧ i ∈ ((cfg0.win 4).blk t).view.set := by
  have hi0 : (i 0).val < 4096 := idx2_lt0 i
  have hi1 : (i 1).val < 1024 := idx2_lt1 i
  have hN : grid0.N = 16 := N_0
  obtain ⟨t, ht⟩ : ∃ t : Fin cfg0.N, t.val = (i 0).val / 256 :=
    ⟨⟨(i 0).val / 256, by show (i 0).val / 256 < grid0.N; omega⟩, rfl⟩
  obtain ⟨-, -, e0, e1, -⟩ := idx_facts t
  refine ⟨t, flush0_4 t, ?_⟩
  rw [mem_blk]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 1024 ≤ (i 1).val ∧ (i 1).val < win0_4.index t (1 : Fin 2) * 1024 + 1024
    omega

-- Given the body's action on rows and the weight array's contents, row n of the final result is the network of row n of the input.
theorem arr_apply_of (Wd : Dev nD → Fin 12 → QNet.Mat)
    (hrow : ∀ (x0 : Vec Ideal S256x1024 .f32) (x1 : Vec Ideal S12x1024x1024 .bf16) (x2 x3 : Vec Ideal S2x1024 .f32)
        (p : Fin 256) (q : Fin 1024),
        out0_4 (F := Ideal) x0 x1 x2 x3 (ix2 p q)
          = QNet.net (fun (l : Fin 12) => QNet.lin (fun o i => x1 (ix3 l o i)))
              (fun k j => x2 (ix2 k j)) (fun k j => x3 (ix2 k j)) (fun i => x0 (ix2 p i)) q)
    (hW : ∀ (c : Dev nD) (l : Fin 12) (o i : Fin 1024),
        (V m c main_v22 : S12x1024x1024.Idx → EReal) (ix3 l o i)
          = QNet.fold (Wd c l)
              (fun r i => (m ((c : Thread nD τ).loc main_arg3) : S12x4x1024.Idx → EReal) (ix3 l r i))
              (fun o r => (m ((c : Thread nD τ).loc main_arg4) : S12x1024x4.Idx → EReal) (ix3 l o r)) o i)
    (c : Dev nD) (n : Fin 4096) (q : Fin 1024) :
    ((dats m 0 c).arrAt 4 cfg0.N : S4096x1024.Idx → EReal) (ix2 n q)
      = QNet.netK (Wd c)
          (fun l r i => (m ((c : Thread nD τ).loc main_arg3) : S12x4x1024.Idx → EReal) (ix3 l r i))
          (fun l o r => (m ((c : Thread nD τ).loc main_arg4) : S12x1024x4.Idx → EReal) (ix3 l o r))
          (fun k j => (m ((c : Thread nD τ).loc main_arg5) : S2x1024.Idx → EReal) (ix2 k j))
          (fun k j => (m ((c : Thread nD τ).loc main_arg6) : S2x1024.Idx → EReal) (ix2 k j))
          (fun i => (m ((c : Thread nD τ).loc main_arg0) : S4096x1024.Idx → EReal) (ix2 n i)) q := by
  have hfin : (dats m 0 c).arrAt 4 cfg0.N = G m Wd c :=
    (dats m 0 c).arrAt_eq_of_cover 4 (G m Wd c) (fun t _ => flushed_eq m Wd hrow hW c t) cover
  exact congrFun hfin (ix2 n q)

end Cert.KernelIdeal.KFinal

end
-- ==== Proof.RefOps.lean ====
import proofs.«416238_j53798760350388_3_alg».proof.ReferenceIdeal
import proofs.«416238_j53798760350388_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem forall_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

-- The reference program's operations in order, cut where the network is: four cuts of the parameter arrays, twelve layers, two normalisations; a chunk that a printed window of the program cuts is written as its two parts.
def ch0 : List (HloOp τ sig (Elt F)) :=
  [ unary main_arg1 main_v0 (extractStridedSlice S3x8192x64 ![0, 0, 0] · slices_S12x8192x64_S3x8192x64_0_0_0),
    unary main_arg2 main_v1 (extractStridedSlice S3x8192x1 ![0, 0, 0] · slices_S12x8192x1_S3x8192x1_0_0_0),
    unary main_arg3 main_v2 (extractStridedSlice S3x4x1024 ![0, 0, 0] · slices_S12x4x1024_S3x4x1024_0_0_0),
    unary main_arg4 main_v3 (extractStridedSlice S3x1024x4 ![0, 0, 0] · slices_S12x1024x4_S3x1024x4_0_0_0) ]

set_option maxRecDepth 8192 in
theorem ch0_sub : ∀ op ∈ (ch0 : List (HloOp τ sig (Elt F))), op.bufs ⊆ tcRefs τ sig := by
  refine List.forall_iff_forall_mem.mp ?_
  unfold ch0
  exact ⟨unary_bufs_sub .., unary_bufs_sub .., unary_bufs_sub .., unary_bufs_sub ..⟩

set_option maxRecDepth 8192 in
theorem ch0_fresh : ∀ op ∈ (ch0 : List (HloOp τ sig (Elt F))), op.fresh = ∅ := by
  refine List.forall_iff_forall_mem.mp ?_
  unfold ch0
  exact ⟨rfl, rfl, rfl, rfl⟩

def ch1 : List (HloOp τ sig (Elt F)) :=
  [ unary main_v0 main_v4 (extractStridedSlice S1x8192x64 ![0, 0, 0] · slices_S3x8192x64_S1x8192x64_0_0_0),
    reshape main_v4 main_v5 rfl shapeCasts_S1x8192x64_S8192x64,
    unary main_v1 main_v6 (extractStridedSlice S1x8192x1 ![0, 0, 0] · slices_S3x8192x1_S1x8192x1_0_0_0),
    reshape main_v6 main_v7 rfl shapeCasts_S1x8192x1_S8192x1,
    unary main_v2 main_v8 (extractStridedSlice S1x4x1024 ![0, 0, 0] · slices_S3x4x1024_S1x4x1024_0_0_0),
    reshape main_v8 main_v9 rfl shapeCasts_S1x4x1024_S4x1024,
    unary main_v3 main_v10 (extractStridedSlice S1x1024x4 ![0, 0, 0] · slices_S3x1024x4_S1x1024x4_0_0_0),
    reshape main_v10 main_v11 rfl shapeCasts_S1x1024x4_S1024x4,
    nullary main_c (constantI S_ 32 15#32),
    unary main_c main_v12 (broadcastInDim S8192x64 ![] bcast_S_S8192x64),
    binary main_v5 main_v12 main_v13 (andi),
    nullary main_c_0 (constantI S_ 32 4#32),
    unary main_c_0 main_v14 (broadcastInDim S8192x64 ![] bcast_S_S8192x64),
    binary main_v5 main_v14 main_v15 (Host.shrsi),
    nullary main_c_1 (constantI S_ 32 15#32),
    unary main_c_1 main_v16 (broadcastInDim S8192x64 ![] bcast_S_S8192x64),
    binary main_v15 main_v16 main_v17 (andi),
    unary main_v13 main_v18 (broadcastInDim S8192x64x1 ![0, 1] bcast_S8192x64_S8192x64x1_0_1),
    unary main_v17 main_v19 (broadcastInDim S8192x64x1 ![0, 1] bcast_S8192x64_S8192x64x1_0_1),
    binary main_v18 main_v19 main_v20 (fun a b => concatenate S8192x64x2 2 [⟨S8192x64x1, a⟩, ⟨S8192x64x1, b⟩] concatenates_S8192x64x1_S8192x64x1_S8192x64x2_d2),
    reshape main_v20 main_v21 rfl shapeCasts_S8192x64x2_S8192x128,
    unary main_v21 main_v22 (sitofp .f32),
    nullary main_cst (constant S_ .f32 0x41700000#32),
    unary main_cst main_v23 (broadcastInDim S8192x128 ![] bcast_S_S8192x128),
    binary main_v22 main_v23 main_v24 (Host.divf),
    nullary main_cst_2 (constant S_ .f32 0x40000000#32),
    unary main_cst_2 main_v25 (broadcastInDim S8192x128 ![] bcast_S_S8192x128),
    binary main_v24 main_v25 main_v26 (mulf),
    nullary main_cst_3 (constant S_ .f32 0x3F800000#32),
    unary main_cst_3 main_v27 (broadcastInDim S8192x128 ![] bcast_S_S8192x128),
    binary main_v26 main_v27 main_v28 (subf),
    unary main_v7 main_v29 (broadcastInDim S8192x128 ![0, 1] bcast_S8192x1_S8192x128_0_1),
    binary main_v28 main_v29 main_v30 (mulf),
    reshape main_v30 main_v31 rfl shapeCasts_S8192x128_S1024x1024,
    unary main_v31 main_v32 (transpose S1024x1024 [1, 0] · transposes_S1024x1024_S1024x1024_1_0),
    binary main_arg0 main_v32 main_v33 (fun l r => Host.dotGeneral dot_S4096x1024_S1024x1024_S4096x1024_1_0_0_1_n_n none l r),
    unary main_v9 main_v34 (transpose S1024x4 [1, 0] · transposes_S4x1024_S1024x4_1_0),
    binary main_arg0 main_v34 main_v35 (fun l r => Host.dotGeneral dot_S4096x1024_S1024x4_S4096x4_1_0_0_1_n_n none l r),
    unary main_v11 main_v36 (transpose S4x1024 [1, 0] · transposes_S1024x4_S4x1024_1_0),
    binary main_v35 main_v36 main_v37 (fun l r => Host.dotGeneral dot_S4096x4_S4x1024_S4096x1024_1_0_0_1_n_n none l r),
    binary main_v33 main_v37 main_v38 (addf),
    TRef.nullary main_call0.cst (constant S_ .f32 0x00000000#32),
    TRef.unary main_call0.cst main_call0.v0 (broadcastInDim S4096x1024 ![] bcast_S_S4096x1024),
    TRef.binary (.of main_v38) main_call0.v0 main_call0.v1 maximumf ]

set_option maxRecDepth 8192 in
theorem ch1_sub : ∀ op ∈ (ch1 : List (HloOp τ sig (Elt F))), op.bufs ⊆ tcRefs τ sig := by
  refine List.forall_iff_forall_mem.mp ?_
  unfold ch1
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., nullary_bufs_sub .., unary_bufs_sub .., binary_bufs_sub ..⟩

set_option maxRecDepth 8192 in
theorem ch1_fresh : ∀ op ∈ (ch1 : List (HloOp τ sig (Elt F))), op.fresh = ∅ := by
  refine List.forall_iff_forall_mem.mp ?_
  unfold ch1
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

noncomputable def ch2a : List (HloOp τ sig (Elt F)) :=
  [ unary main_v0 main_v40 (extractStridedSlice S1x8192x64 ![1, 0, 0] · slices_S3x8192x64_S1x8192x64_1_0_0),
    reshape main_v40 main_v41 rfl shapeCasts_S1x8192x64_S8192x64,
    unary main_v1 main_v42 (extractStridedSlice S1x8192x1 ![1, 0, 0] · slices_S3x8192x1_S1x8192x1_1_0_0),
    reshape main_v42 main_v43 rfl shapeCasts_S1x8192x1_S8192x1,
    unary main_v2 main_v44 (extractStridedSlice S1x4x1024 ![1, 0, 0] · slices_S3x4x1024_S1x4x1024_1_0_0),
    reshape main_v44 main_v45 rfl shapeCasts_S1x4x1024_S4x1024,
    unary main_v3 main_v46 (extractStridedSlice S1x1024x4 ![1, 0, 0] · slices_S3x1024x4_S1x1024x4_1_0_0),
    reshape main_v46 main_v47 rfl shapeCasts_S1x1024x4_S1024x4,
    nullary main_c_4 (constantI S_ 32 15#32),
    unary main_c_4 main_v48 (broadcastInDim S8192x64 ![] bcast_S_S8192x64),
    binary main_v41 main_v48 main_v49 (andi),
    nullary main_c_5 (constantI S_ 32 4#32),
    unary main_c_5 main_v50 (broadcastInDim S8192x64 ![] bcast_S_S8192x64),
    binary main_v41 main_v50 main_v51 (Host.shrsi) ]

noncomputable def ch2b : List (HloOp τ sig (Elt F)) :=
  [ nullary main_c_6 (constantI S_ 32 15#32),
    unary main_c_6 main_v52 (broadcastInDim S8192x64 ![] bcast_S_S8192x64),
    binary main_v51 main_v52 main_v53 (andi),
    unary main_v49 main_v54 (broadcastInDim S8192x64x1 ![0, 1] bcast_S8192x64_S8192x64x1_0_1),
    unary main_v53 main_v55 (broadcastInDim S8192x64x1 ![0, 1] bcast_S8192x64_S8192x64x1_0_1),
    binary main_v54 main_v55 main_v56 (fun a b => concatenate S8192x64x2 2 [⟨S8192x64x1, a⟩, ⟨S8192x64x1, b⟩] concatenates_S8192x64x1_S8192x64x1_S8192x64x2_d2),
    reshape main_v56 main_v57 rfl shapeCasts_S8192x64x2_S8192x128,
    unary main_v57 main_v58 (sitofp .f32),
    nullary main_cst_7 (constant S_ .f32 0x41700000#32),
    unary main_cst_7 main_v59 (broadcastInDim S8192x128 ![] bcast_S_S8192x128),
    binary main_v58 main_v59 main_v60 (Host.divf),
    nullary main_cst_8 (constant S_ .f32 0x40000000#32),
    unary main_cst_8 main_v61 (broadcastInDim S8192x128 ![] bcast_S_S8192x128),
    binary main_v60 main_v61 main_v62 (mulf),
    nullary main_cst_9 (constant S_ .f32 0x3F800000#32),
    unary main_cst_9 main_v63 (broadcastInDim S8192x128 ![] bcast_S_S8192x128),
    binary main_v62 main_v63 main_v64 (subf),
    unary main_v43 main_v65 (broadcastInDim S8192x128 ![0, 1] bcast_S8192x1_S8192x128_0_1),
    binary main_v64 main_v65 main_v66 (mulf),
    reshape main_v66 main_v67 rfl shapeCasts_S8192x128_S1024x1024,
    unary main_v67 main_v68 (transpose S1024x1024 [1, 0] · transposes_S1024x1024_S1024x1024_1_0),
    binary main_v39 main_v68 main_v69 (fun l r => Host.dotGeneral dot_S4096x1024_S1024x1024_S4096x1024_1_0_0_1_n_n none l r),
    unary main_v45 main_v70 (transpose S1024x4 [1, 0] · transposes_S4x1024_S1024x4_1_0),
    binary main_v39 main_v70 main_v71 (fun l r => Host.dotGeneral dot_S4096x1024_S1024x4_S4096x4_1_0_0_1_n_n none l r),
    unary main_v47 main_v72 (transpose S4x1024 [1, 0] · transposes_S1024x4_S4x1024_1_0),
    binary main_v71 main_v72 main_v73 (fun l r => Host.dotGeneral dot_S4096x4_S4x1024_S4096x1024_1_0_0_1_n_n none l r),
    binary main_v69 main_v73 main_v74 (addf),
    TRef.nullary main_call1.cst (constant S_ .f32 0x00000000#32),
    TRef.unary main_call1.cst main_call1.v0 (broadcastInDim S4096x1024 ![] bcast_S_S4096x1024),
    TRef.binary (.of main_v74) main_call1.v0 main_call1.v1 maximumf ]

noncomputable def ch2 : List (HloOp τ sig (Elt F)) := ch2a ++ ch2b

set_option maxRecDepth 8192 in
theorem ch2a_sub : ∀ op ∈ (ch2a : List (HloOp τ sig (Elt F))), op.bufs ⊆ tcRefs τ sig := by
  refine List.forall_iff_forall_mem.mp ?_
  unfold ch2a
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub ..⟩

set_option maxRecDepth 8192 in
theorem ch2b_sub : ∀ op ∈ (ch2b : List (HloOp τ sig (Elt F))), op.bufs ⊆ tcRefs τ sig := by
  refine List.forall_iff_forall_mem.mp ?_
  unfold ch2b
  exact ⟨nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., nullary_bufs_sub .., unary_bufs_sub .., binary_bufs_sub ..⟩

theorem ch2_sub : ∀ op ∈ (ch2 : List (HloOp τ sig (Elt F))), op.bufs ⊆ tcRefs τ sig := forall_app ch2a_sub ch2b_sub

set_option maxRecDepth 8192 in
theorem ch2a_fresh : ∀ op ∈ (ch2a : List (HloOp τ sig (Elt F))), op.fresh = ∅ := by
  refine List.forall_iff_forall_mem.mp ?_
  unfold ch2a
  exact ⟨rfl, rfl, rfl, rfl, rfl, rfl, rfl, rfl, rfl, rfl, rfl, rfl, rfl, rfl⟩

set_option maxRecDepth 8192 in
theorem ch2b_fresh : ∀ op ∈ (ch2b : List (HloOp τ sig (Elt F))), op.fresh = ∅ := by
  refine List.forall_iff_forall_mem.mp ?_
  unfold ch2b
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch2_fresh : ∀ op ∈ (ch2 : List (HloOp τ sig (Elt F))), op.fresh = ∅ := forall_app ch2a_fresh ch2b_fresh

noncomputable def ch3a : List (HloOp τ sig (Elt F)) :=
  [ unary main_v0 main_v76 (extractStridedSlice S1x8192x64 ![2, 0, 0] · slices_S3x8192x64_S1x8192x64_2_0_0),
    reshape main_v76 main_v77 rfl shapeCasts_S1x8192x64_S8192x64,
    unary main_v1 main_v78 (extractStridedSlice S1x8192x1 ![2, 0, 0] · slices_S3x8192x1_S1x8192x1_2_0_0),
    reshape main_v78 main_v79 rfl shapeCasts_S1x8192x1_S8192x1,
    unary main_v2 main_v80 (extractStridedSlice S1x4x1024 ![2, 0, 0] · slices_S3x4x1024_S1x4x1024_2_0_0),
    reshape main_v80 main_v81 rfl shapeCasts_S1x4x1024_S4x1024,
    unary main_v3 main_v82 (extractStridedSlice S1x1024x4 ![2, 0, 0] · slices_S3x1024x4_S1x1024x4_2_0_0),
    reshape main_v82 main_v83 rfl shapeCasts_S1x1024x4_S1024x4,
    nullary main_c_10 (constantI S_ 32 15#32),
    unary main_c_10 main_v84 (broadcastInDim S8192x64 ![] bcast_S_S8192x64),
    binary main_v77 main_v84 main_v85 (andi),
    nullary main_c_11 (constantI S_ 32 4#32),
    unary main_c_11 main_v86 (broadcastInDim S8192x64 ![] bcast_S_S8192x64),
    binary main_v77 main_v86 main_v87 (Host.shrsi),
    nullary main_c_12 (constantI S_ 32 15#32),
    unary main_c_12 main_v88 (broadcastInDim S8192x64 ![] bcast_S_S8192x64),
    binary main_v87 main_v88 main_v89 (andi),
    unary main_v85 main_v90 (broadcastInDim S8192x64x1 ![0, 1] bcast_S8192x64_S8192x64x1_0_1),
    unary main_v89 main_v91 (broadcastInDim S8192x64x1 ![0, 1] bcast_S8192x64_S8192x64x1_0_1),
    binary main_v90 main_v91 main_v92 (fun a b => concatenate S8192x64x2 2 [⟨S8192x64x1, a⟩, ⟨S8192x64x1, b⟩] concatenates_S8192x64x1_S8192x64x1_S8192x64x2_d2),
    reshape main_v92 main_v93 rfl shapeCasts_S8192x64x2_S8192x128,
    unary main_v93 main_v94 (sitofp .f32),
    nullary main_cst_13 (constant S_ .f32 0x41700000#32),
    unary main_cst_13 main_v95 (broadcastInDim S8192x128 ![] bcast_S_S8192x128),
    binary main_v94 main_v95 main_v96 (Host.divf),
    nullary main_cst_14 (constant S_ .f32 0x40000000#32),
    unary main_cst_14 main_v97 (broadcastInDim S8192x128 ![] bcast_S_S8192x128),
    binary main_v96 main_v97 main_v98 (mulf),
    nullary main_cst_15 (constant S_ .f32 0x3F800000#32),
    unary main_cst_15 main_v99 (broadcastInDim S8192x128 ![] bcast_S_S8192x128),
    binary main_v98 main_v99 main_v100 (subf),
    unary main_v79 main_v101 (broadcastInDim S8192x128 ![0, 1] bcast_S8192x1_S8192x128_0_1) ]

noncomputable def ch3b : List (HloOp τ sig (Elt F)) :=
  [ binary main_v100 main_v101 main_v102 (mulf),
    reshape main_v102 main_v103 rfl shapeCasts_S8192x128_S1024x1024,
    unary main_v103 main_v104 (transpose S1024x1024 [1, 0] · transposes_S1024x1024_S1024x1024_1_0),
    binary main_v75 main_v104 main_v105 (fun l r => Host.dotGeneral dot_S4096x1024_S1024x1024_S4096x1024_1_0_0_1_n_n none l r),
    unary main_v81 main_v106 (transpose S1024x4 [1, 0] · transposes_S4x1024_S1024x4_1_0),
    binary main_v75 main_v106 main_v107 (fun l r => Host.dotGeneral dot_S4096x1024_S1024x4_S4096x4_1_0_0_1_n_n none l r),
    unary main_v83 main_v108 (transpose S4x1024 [1, 0] · transposes_S1024x4_S4x1024_1_0),
    binary main_v107 main_v108 main_v109 (fun l r => Host.dotGeneral dot_S4096x4_S4x1024_S4096x1024_1_0_0_1_n_n none l r),
    binary main_v105 main_v109 main_v110 (addf),
    binary main_v110 main_arg0 main_v111 (addf) ]

noncomputable def ch3 : List (HloOp τ sig (Elt F)) := ch3a ++ ch3b

set_option maxRecDepth 8192 in
theorem ch3a_sub : ∀ op ∈ (ch3a : List (HloOp τ sig (Elt F))), op.bufs ⊆ tcRefs τ sig := by
  refine List.forall_iff_forall_mem.mp ?_
  unfold ch3a
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub ..⟩

set_option maxRecDepth 8192 in
theorem ch3b_sub : ∀ op ∈ (ch3b : List (HloOp τ sig (Elt F))), op.bufs ⊆ tcRefs τ sig := by
  refine List.forall_iff_forall_mem.mp ?_
  unfold ch3b
  exact ⟨binary_bufs_sub .., reshape_bufs_sub .., unary_bufs_sub .., binary_bufs_sub .., unary_bufs_sub .., binary_bufs_sub .., unary_bufs_sub .., binary_bufs_sub .., binary_bufs_sub .., binary_bufs_sub ..⟩

theorem ch3_sub : ∀ op ∈ (ch3 : List (HloOp τ sig (Elt F))), op.bufs ⊆ tcRefs τ sig := forall_app ch3a_sub ch3b_sub

set_option maxRecDepth 8192 in
theorem ch3a_fresh : ∀ op ∈ (ch3a : List (HloOp τ sig (Elt F))), op.fresh = ∅ := by
  refine List.forall_iff_forall_mem.mp ?_
  unfold ch3a
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ch3b_fresh : ∀ op ∈ (ch3b : List (HloOp τ sig (Elt F))), op.fresh = ∅ := by
  refine List.forall_iff_forall_mem.mp ?_
  unfold ch3b
  exact ⟨rfl, rfl, rfl, rfl, rfl, rfl, rfl, rfl, rfl, rfl⟩

theorem ch3_fresh : ∀ op ∈ (ch3 : List (HloOp τ sig (Elt F))), op.fresh = ∅ := forall_app ch3a_fresh ch3b_fresh

def ch4 : List (HloOp τ sig (Elt F)) :=
  [ unary main_arg5 main_v112 (extractStridedSlice S1x1024 ![0, 0] · slices_S2x1024_S1x1024_0_0),
    reshape main_v112 main_v113 rfl shapeCasts_S1x1024_S1024,
    unary main_arg6 main_v114 (extractStridedSlice S1x1024 ![0, 0] · slices_S2x1024_S1x1024_0_0),
    reshape main_v114 main_v115 rfl shapeCasts_S1x1024_S1024,
    nullary main_cst_16 (constant S_ .f32 0x00000000#32),
    binary main_v111 main_cst_16 main_v116 (fun x v => Host.reduceAdd x v reducesTo_S4096x1024_S4096_d1 h_S_),
    unary main_v116 main_v117 (broadcastInDim S4096x1 ![0] bcast_S4096_S4096x1_0),
    nullary main_cst_17 (constant S_ .f32 0x44800000#32),
    unary main_cst_17 main_v118 (broadcastInDim S4096x1 ![] bcast_S_S4096x1),
    binary main_v117 main_v118 main_v119 (Host.divf),
    nullary main_c_18 (constantI S_ 32 0#32),
    TRef.nullary main_call2.cst (constant S_ .f32 0x00000000#32),
    TRef.binary (.of main_v111) main_call2.cst main_call2.v0 (fun x v => Host.reduceAdd x v reducesTo_S4096x1024_S4096_d1 h_S_),
    TRef.unary main_call2.v0 main_call2.v1 (broadcastInDim S4096x1 ![0] bcast_S4096_S4096x1_0),
    TRef.nullary main_call2.cst_0 (constant S_ .f32 0x44800000#32),
    TRef.unary main_call2.cst_0 main_call2.v2 (broadcastInDim S4096x1 ![] bcast_S_S4096x1),
    TRef.binary main_call2.v1 main_call2.v2 main_call2.v3 Host.divf,
    TRef.unary main_call2.v3 main_call2.v4 (broadcastInDim S4096x1024 ![0, 1] bcast_S4096x1_S4096x1024_0_1),
    TRef.binary (.of main_v111) main_call2.v4 main_call2.v5 subf,
    TRef.binary main_call2.v5 main_call2.v5 main_call2.v6 mulf,
    TRef.unary (.of main_c_18) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S4096x1024_S4096_d1 h_S_),
    TRef.unary main_call2.v9 main_call2.v10 (broadcastInDim S4096x1 ![0] bcast_S4096_S4096x1_0),
    TRef.unary main_call2.v8 main_call2.v11 (broadcastInDim S4096x1 ![] bcast_S_S4096x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2_call0.v0 id,
    TRef.unary main_call2_call0.v0 main_call2_call0.v1 (broadcastInDim S4096x1 ![] bcast_S_S4096x1),
    TRef.ternary main_call2.v13 main_call2.v12 main_call2_call0.v1 main_call2_call0.v2 (fun p a b => select (broadcastInDim S4096x1 ![] bcast_S_S4096x1 p) a b),
    unary main_v119 main_v121 (broadcastInDim S4096x1024 ![0, 1] bcast_S4096x1_S4096x1024_0_1),
    binary main_v111 main_v121 main_v122 (subf),
    nullary main_cst_19 (constant S_ .f32 0x3727C5AC#32),
    unary main_cst_19 main_v123 (broadcastInDim S4096x1 ![] bcast_S_S4096x1),
    binary main_v120 main_v123 main_v124 (addf),
    unary main_v124 main_v125 (Host.rsqrt),
    unary main_v125 main_v126 (broadcastInDim S4096x1024 ![0, 1] bcast_S4096x1_S4096x1024_0_1),
    binary main_v122 main_v126 main_v127 (mulf),
    unary main_v113 main_v128 (broadcastInDim S1x1024 ![1] bcast_S1024_S1x1024_1),
    unary main_v128 main_v129 (broadcastInDim S4096x1024 ![0, 1] bcast_S1x1024_S4096x1024_0_1),
    binary main_v127 main_v129 main_v130 (mulf),
    unary main_v115 main_v131 (broadcastInDim S1x1024 ![1] bcast_S1024_S1x1024_1),
    unary main_v131 main_v132 (broadcastInDim S4096x1024 ![0, 1] bcast_S1x1024_S4096x1024_0_1),
    binary main_v130 main_v132 main_v133 (addf) ]

set_option maxRecDepth 8192 in
theorem ch4_sub : ∀ op ∈ (ch4 : List (HloOp τ sig (Elt F))), op.bufs ⊆ tcRefs τ sig := by
  refine List.forall_iff_forall_mem.mp ?_
  unfold ch4
  exact ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
theorem ch4_fresh : ∀ op ∈ (ch4 : List (HloOp τ sig (Elt F))), op.fresh = ∅ := by
  refine List.forall_iff_forall_mem.mp ?_
  unfold ch4
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def ch5 : List (HloOp τ sig (Elt F)) :=
  [ unary main_arg1 main_v134 (extractStridedSlice S3x8192x64 ![3, 0, 0] · slices_S12x8192x64_S3x8192x64_3_0_0),
    unary main_arg2 main_v135 (extractStridedSlice S3x8192x1 ![3, 0, 0] · slices_S12x8192x1_S3x8192x1_3_0_0),
    unary main_arg3 main_v136 (extractStridedSlice S3x4x1024 ![3, 0, 0] · slices_S12x4x1024_S3x4x1024_3_0_0),
    unary main_arg4 main_v137 (extractStridedSlice S3x1024x4 ![3, 0, 0] · slices_S12x1024x4_S3x1024x4_3_0_0) ]

set_option maxRecDepth 8192 in
theorem ch5_sub : ∀ op ∈ (ch5 : List (HloOp τ sig (Elt F))), op.bufs ⊆ tcRefs τ sig := by
  refine List.forall_iff_forall_mem.mp ?_
  unfold ch5
  exact ⟨unary_bufs_sub .., unary_bufs_sub .., unary_bufs_sub .., unary_bufs_sub ..⟩

set_option maxRecDepth 8192 in
theorem ch5_fresh : ∀ op ∈ (ch5 : List (HloOp τ sig (Elt F))), op.fresh = ∅ := by
  refine List.forall_iff_forall_mem.mp ?_
  unfold ch5
  exact ⟨rfl, rfl, rfl, rfl⟩

noncomputable def ch6a : List (HloOp τ sig (Elt F)) :=
  [ unary main_v134 main_v138 (extractStridedSlice S1x8192x64 ![0, 0, 0] · slices_S3x8192x64_S1x8192x64_0_0_0),
    reshape main_v138 main_v139 rfl shapeCasts_S1x8192x64_S8192x64,
    unary main_v135 main_v140 (extractStridedSlice S1x8192x1 ![0, 0, 0] · slices_S3x8192x1_S1x8192x1_0_0_0),
    reshape main_v140 main_v141 rfl shapeCasts_S1x8192x1_S8192x1,
    unary main_v136 main_v142 (extractStridedSlice S1x4x1024 ![0, 0, 0] · slices_S3x4x1024_S1x4x1024_0_0_0),
    reshape main_v142 main_v143 rfl shapeCasts_S1x4x1024_S4x1024,
    unary main_v137 main_v144 (extractStridedSlice S1x1024x4 ![0, 0, 0] · slices_S3x1024x4_S1x1024x4_0_0_0),
    reshape main_v144 main_v145 rfl shapeCasts_S1x1024x4_S1024x4,
    nullary main_c_20 (constantI S_ 32 15#32),
    unary main_c_20 main_v146 (broadcastInDim S8192x64 ![] bcast_S_S8192x64),
    binary main_v139 main_v146 main_v147 (andi),
    nullary main_c_21 (constantI S_ 32 4#32),
    unary main_c_21 main_v148 (broadcastInDim S8192x64 ![] bcast_S_S8192x64),
    binary main_v139 main_v148 main_v149 (Host.shrsi),
    nullary main_c_22 (constantI S_ 32 15#32),
    unary main_c_22 main_v150 (broadcastInDim S8192x64 ![] bcast_S_S8192x64),
    binary main_v149 main_v150 main_v151 (andi),
    unary main_v147 main_v152 (broadcastInDim S8192x64x1 ![0, 1] bcast_S8192x64_S8192x64x1_0_1),
    unary main_v151 main_v153 (broadcastInDim S8192x64x1 ![0, 1] bcast_S8192x64_S8192x64x1_0_1),
    binary main_v152 main_v153 main_v154 (fun a b => concatenate S8192x64x2 2 [⟨S8192x64x1, a⟩, ⟨S8192x64x1, b⟩] concatenates_S8192x64x1_S8192x64x1_S8192x64x2_d2) ]

noncomputable def ch6b : List (HloOp τ sig (Elt F)) :=
  [ reshape main_v154 main_v155 rfl shapeCasts_S8192x64x2_S8192x128,
    unary main_v155 main_v156 (sitofp .f32),
    nullary main_cst_23 (constant S_ .f32 0x41700000#32),
    unary main_cst_23 main_v157 (broadcastInDim S8192x128 ![] bcast_S_S8192x128),
    binary main_v156 main_v157 main_v158 (Host.divf),
    nullary main_cst_24 (constant S_ .f32 0x40000000#32),
    unary main_cst_24 main_v159 (broadcastInDim S8192x128 ![] bcast_S_S8192x128),
    binary main_v158 main_v159 main_v160 (mulf),
    nullary main_cst_25 (constant S_ .f32 0x3F800000#32),
    unary main_cst_25 main_v161 (broadcastInDim S8192x128 ![] bcast_S_S8192x128),
    binary main_v160 main_v161 main_v162 (subf),
    unary main_v141 main_v163 (broadcastInDim S8192x128 ![0, 1] bcast_S8192x1_S8192x128_0_1),
    binary main_v162 main_v163 main_v164 (mulf),
    reshape main_v164 main_v165 rfl shapeCasts_S8192x128_S1024x1024,
    unary main_v165 main_v166 (transpose S1024x1024 [1, 0] · transposes_S1024x1024_S1024x1024_1_0),
    binary main_v133 main_v166 main_v167 (fun l r => Host.dotGeneral dot_S4096x1024_S1024x1024_S4096x1024_1_0_0_1_n_n none l r),
    unary main_v143 main_v168 (transpose S1024x4 [1, 0] · transposes_S4x1024_S1024x4_1_0),
    binary main_v133 main_v168 main_v169 (fun l r => Host.dotGeneral dot_S4096x1024_S1024x4_S4096x4_1_0_0_1_n_n none l r),
    unary main_v145 main_v170 (transpose S4x1024 [1, 0] · transposes_S1024x4_S4x1024_1_0),
    binary main_v169 main_v170 main_v171 (fun l r => Host.dotGeneral dot_S4096x4_S4x1024_S4096x1024_1_0_0_1_n_n none l r),
    binary main_v167 main_v171 main_v172 (addf),
    TRef.nullary main_call3.cst (constant S_ .f32 0x00000000#32),
    TRef.unary main_call3.cst main_call3.v0 (broadcastInDim S4096x1024 ![] bcast_S_S4096x1024),
    TRef.binary (.of main_v172) main_call3.v0 main_call3.v1 maximumf ]

noncomputable def ch6 : List (HloOp τ sig (Elt F)) := ch6a ++ ch6b

set_option maxRecDepth 8192 in
theorem ch6a_sub : ∀ op ∈ (ch6a : List (HloOp τ sig (Elt F))), op.bufs ⊆ tcRefs τ sig := by
  refine List.forall_iff_forall_mem.mp ?_
  unfold ch6a
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub ..⟩

set_option maxRecDepth 8192 in
theorem ch6b_sub : ∀ op ∈ (ch6b : List (HloOp τ sig (Elt F))), op.bufs ⊆ tcRefs τ sig := by
  refine List.forall_iff_forall_mem.mp ?_
  unfold ch6b
  exact ⟨reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., nullary_bufs_sub .., unary_bufs_sub .., binary_bufs_sub ..⟩

theorem ch6_sub : ∀ op ∈ (ch6 : List (HloOp τ sig (Elt F))), op.bufs ⊆ tcRefs τ sig := forall_app ch6a_sub ch6b_sub

set_option maxRecDepth 8192 in
theorem ch6a_fresh : ∀ op ∈ (ch6a : List (HloOp τ sig (Elt F))), op.fresh = ∅ := by
  refine List.forall_iff_forall_mem.mp ?_
  unfold ch6a
  exact ⟨rfl, rfl, rfl, rfl, rfl, rfl, rfl, rfl, rfl, rfl, rfl, rfl, rfl, rfl, rfl, rfl, rfl, rfl, rfl, rfl⟩

set_option maxRecDepth 8192 in
theorem ch6b_fresh : ∀ op ∈ (ch6b : List (HloOp τ sig (Elt F))), op.fresh = ∅ := by
  refine List.forall_iff_forall_mem.mp ?_
  unfold ch6b
  exact ⟨rfl, rfl, rfl, rfl, rfl, rfl, rfl, rfl, rfl, rfl, rfl, rfl, rfl, rfl, rfl, rfl, rfl, rfl, rfl, rfl, rfl, rfl, rfl, rfl⟩

theorem ch6_fresh : ∀ op ∈ (ch6 : List (HloOp τ sig (Elt F))), op.fresh = ∅ := forall_app ch6a_fresh ch6b_fresh

noncomputable def ch7a : List (HloOp τ sig (Elt F)) :=
  [ unary main_v134 main_v174 (extractStridedSlice S1x8192x64 ![1, 0, 0] · slices_S3x8192x64_S1x8192x64_1_0_0),
    reshape main_v174 main_v175 rfl shapeCasts_S1x8192x64_S8192x64,
    unary main_v135 main_v176 (extractStridedSlice S1x8192x1 ![1, 0, 0] · slices_S3x8192x1_S1x8192x1_1_0_0),
    reshape main_v176 main_v177 rfl shapeCasts_S1x8192x1_S8192x1,
    unary main_v136 main_v178 (extractStridedSlice S1x4x1024 ![1, 0, 0] · slices_S3x4x1024_S1x4x1024_1_0_0),
    reshape main_v178 main_v179 rfl shapeCasts_S1x4x1024_S4x1024,
    unary main_v137 main_v180 (extractStridedSlice S1x1024x4 ![1, 0, 0] · slices_S3x1024x4_S1x1024x4_1_0_0),
    reshape main_v180 main_v181 rfl shapeCasts_S1x1024x4_S1024x4,
    nullary main_c_26 (constantI S_ 32 15#32),
    unary main_c_26 main_v182 (broadcastInDim S8192x64 ![] bcast_S_S8192x64),
    binary main_v175 main_v182 main_v183 (andi),
    nullary main_c_27 (constantI S_ 32 4#32),
    unary main_c_27 main_v184 (broadcastInDim S8192x64 ![] bcast_S_S8192x64),
    binary main_v175 main_v184 main_v185 (Host.shrsi),
    nullary main_c_28 (constantI S_ 32 15#32),
    unary main_c_28 main_v186 (broadcastInDim S8192x64 ![] bcast_S_S8192x64),
    binary main_v185 main_v186 main_v187 (andi),
    unary main_v183 main_v188 (broadcastInDim S8192x64x1 ![0, 1] bcast_S8192x64_S8192x64x1_0_1),
    unary main_v187 main_v189 (broadcastInDim S8192x64x1 ![0, 1] bcast_S8192x64_S8192x64x1_0_1),
    binary main_v188 main_v189 main_v190 (fun a b => concatenate S8192x64x2 2 [⟨S8192x64x1, a⟩, ⟨S8192x64x1, b⟩] concatenates_S8192x64x1_S8192x64x1_S8192x64x2_d2),
    reshape main_v190 main_v191 rfl shapeCasts_S8192x64x2_S8192x128,
    unary main_v191 main_v192 (sitofp .f32),
    nullary main_cst_29 (constant S_ .f32 0x41700000#32),
    unary main_cst_29 main_v193 (broadcastInDim S8192x128 ![] bcast_S_S8192x128),
    binary main_v192 main_v193 main_v194 (Host.divf),
    nullary main_cst_30 (constant S_ .f32 0x40000000#32),
    unary main_cst_30 main_v195 (broadcastInDim S8192x128 ![] bcast_S_S8192x128),
    binary main_v194 main_v195 main_v196 (mulf),
    nullary main_cst_31 (constant S_ .f32 0x3F800000#32),
    unary main_cst_31 main_v197 (broadcastInDim S8192x128 ![] bcast_S_S8192x128),
    binary main_v196 main_v197 main_v198 (subf),
    unary main_v177 main_v199 (broadcastInDim S8192x128 ![0, 1] bcast_S8192x1_S8192x128_0_1),
    binary main_v198 main_v199 main_v200 (mulf),
    reshape main_v200 main_v201 rfl shapeCasts_S8192x128_S1024x1024,
    unary main_v201 main_v202 (transpose S1024x1024 [1, 0] · transposes_S1024x1024_S1024x1024_1_0),
    binary main_v173 main_v202 main_v203 (fun l r => Host.dotGeneral dot_S4096x1024_S1024x1024_S4096x1024_1_0_0_1_n_n none l r),
    unary main_v179 main_v204 (transpose S1024x4 [1, 0] · transposes_S4x1024_S1024x4_1_0),
    binary main_v173 main_v204 main_v205 (fun l r => Host.dotGeneral dot_S4096x1024_S1024x4_S4096x4_1_0_0_1_n_n none l r) ]

noncomputable def ch7b : List (HloOp τ sig (Elt F)) :=
  [ unary main_v181 main_v206 (transpose S4x1024 [1, 0] · transposes_S1024x4_S4x1024_1_0),
    binary main_v205 main_v206 main_v207 (fun l r => Host.dotGeneral dot_S4096x4_S4x1024_S4096x1024_1_0_0_1_n_n none l r),
    binary main_v203 main_v207 main_v208 (addf),
    TRef.nullary main_call4.cst (constant S_ .f32 0x00000000#32),
    TRef.unary main_call4.cst main_call4.v0 (broadcastInDim S4096x1024 ![] bcast_S_S4096x1024),
    TRef.binary (.of main_v208) main_call4.v0 main_call4.v1 maximumf ]

noncomputable def ch7 : List (HloOp τ sig (Elt F)) := ch7a ++ ch7b

set_option maxRecDepth 8192 in
theorem ch7a_sub : ∀ op ∈ (ch7a : List (HloOp τ sig (Elt F))), op.bufs ⊆ tcRefs τ sig := by
  refine List.forall_iff_forall_mem.mp ?_
  unfold ch7a
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub ..⟩

set_option maxRecDepth 8192 in
theorem ch7b_sub : ∀ op ∈ (ch7b : List (HloOp τ sig (Elt F))), op.bufs ⊆ tcRefs τ sig := by
  refine List.forall_iff_forall_mem.mp ?_
  unfold ch7b
  exact ⟨unary_bufs_sub .., binary_bufs_sub .., binary_bufs_sub .., nullary_bufs_sub .., unary_bufs_sub .., binary_bufs_sub ..⟩

theorem ch7_sub : ∀ op ∈ (ch7 : List (HloOp τ sig (Elt F))), op.bufs ⊆ tcRefs τ sig := forall_app ch7a_sub ch7b_sub

set_option maxRecDepth 8192 in
theorem ch7a_fresh : ∀ op ∈ (ch7a : List (HloOp τ sig (Elt F))), op.fresh = ∅ := by
  refine List.forall_iff_forall_mem.mp ?_
  unfold ch7a
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ch7b_fresh : ∀ op ∈ (ch7b : List (HloOp τ sig (Elt F))), op.fresh = ∅ := by
  refine List.forall_iff_forall_mem.mp ?_
  unfold ch7b
  exact ⟨rfl, rfl, rfl, rfl, rfl, rfl⟩

theorem ch7_fresh : ∀ op ∈ (ch7 : List (HloOp τ sig (Elt F))), op.fresh = ∅ := forall_app ch7a_fresh ch7b_fresh

def ch8 : List (HloOp τ sig (Elt F)) :=
  [ unary main_v134 main_v210 (extractStridedSlice S1x8192x64 ![2, 0, 0] · slices_S3x8192x64_S1x8192x64_2_0_0),
    reshape main_v210 main_v211 rfl shapeCasts_S1x8192x64_S8192x64,
    unary main_v135 main_v212 (extractStridedSlice S1x8192x1 ![2, 0, 0] · slices_S3x8192x1_S1x8192x1_2_0_0),
    reshape main_v212 main_v213 rfl shapeCasts_S1x8192x1_S8192x1,
    unary main_v136 main_v214 (extractStridedSlice S1x4x1024 ![2, 0, 0] · slices_S3x4x1024_S1x4x1024_2_0_0),
    reshape main_v214 main_v215 rfl shapeCasts_S1x4x1024_S4x1024,
    unary main_v137 main_v216 (extractStridedSlice S1x1024x4 ![2, 0, 0] · slices_S3x1024x4_S1x1024x4_2_0_0),
    reshape main_v216 main_v217 rfl shapeCasts_S1x1024x4_S1024x4,
    nullary main_c_32 (constantI S_ 32 15#32),
    unary main_c_32 main_v218 (broadcastInDim S8192x64 ![] bcast_S_S8192x64),
    binary main_v211 main_v218 main_v219 (andi),
    nullary main_c_33 (constantI S_ 32 4#32),
    unary main_c_33 main_v220 (broadcastInDim S8192x64 ![] bcast_S_S8192x64),
    binary main_v211 main_v220 main_v221 (Host.shrsi),
    nullary main_c_34 (constantI S_ 32 15#32),
    unary main_c_34 main_v222 (broadcastInDim S8192x64 ![] bcast_S_S8192x64),
    binary main_v221 main_v222 main_v223 (andi),
    unary main_v219 main_v224 (broadcastInDim S8192x64x1 ![0, 1] bcast_S8192x64_S8192x64x1_0_1),
    unary main_v223 main_v225 (broadcastInDim S8192x64x1 ![0, 1] bcast_S8192x64_S8192x64x1_0_1),
    binary main_v224 main_v225 main_v226 (fun a b => concatenate S8192x64x2 2 [⟨S8192x64x1, a⟩, ⟨S8192x64x1, b⟩] concatenates_S8192x64x1_S8192x64x1_S8192x64x2_d2),
    reshape main_v226 main_v227 rfl shapeCasts_S8192x64x2_S8192x128,
    unary main_v227 main_v228 (sitofp .f32),
    nullary main_cst_35 (constant S_ .f32 0x41700000#32),
    unary main_cst_35 main_v229 (broadcastInDim S8192x128 ![] bcast_S_S8192x128),
    binary main_v228 main_v229 main_v230 (Host.divf),
    nullary main_cst_36 (constant S_ .f32 0x40000000#32),
    unary main_cst_36 main_v231 (broadcastInDim S8192x128 ![] bcast_S_S8192x128),
    binary main_v230 main_v231 main_v232 (mulf),
    nullary main_cst_37 (constant S_ .f32 0x3F800000#32),
    unary main_cst_37 main_v233 (broadcastInDim S8192x128 ![] bcast_S_S8192x128),
    binary main_v232 main_v233 main_v234 (subf),
    unary main_v213 main_v235 (broadcastInDim S8192x128 ![0, 1] bcast_S8192x1_S8192x128_0_1),
    binary main_v234 main_v235 main_v236 (mulf),
    reshape main_v236 main_v237 rfl shapeCasts_S8192x128_S1024x1024,
    unary main_v237 main_v238 (transpose S1024x1024 [1, 0] · transposes_S1024x1024_S1024x1024_1_0),
    binary main_v209 main_v238 main_v239 (fun l r => Host.dotGeneral dot_S4096x1024_S1024x1024_S4096x1024_1_0_0_1_n_n none l r),
    unary main_v215 main_v240 (transpose S1024x4 [1, 0] · transposes_S4x1024_S1024x4_1_0),
    binary main_v209 main_v240 main_v241 (fun l r => Host.dotGeneral dot_S4096x1024_S1024x4_S4096x4_1_0_0_1_n_n none l r),
    unary main_v217 main_v242 (transpose S4x1024 [1, 0] · transposes_S1024x4_S4x1024_1_0),
    binary main_v241 main_v242 main_v243 (fun l r => Host.dotGeneral dot_S4096x4_S4x1024_S4096x1024_1_0_0_1_n_n none l r),
    binary main_v239 main_v243 main_v244 (addf),
    binary main_v244 main_v133 main_v245 (addf) ]

set_option maxRecDepth 8192 in
theorem ch8_sub : ∀ op ∈ (ch8 : List (HloOp τ sig (Elt F))), op.bufs ⊆ tcRefs τ sig := by
  refine List.forall_iff_forall_mem.mp ?_
  unfold ch8
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., binary_bufs_sub ..⟩

set_option maxRecDepth 8192 in
theorem ch8_fresh : ∀ op ∈ (ch8 : List (HloOp τ sig (Elt F))), op.fresh = ∅ := by
  refine List.forall_iff_forall_mem.mp ?_
  unfold ch8
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

def ch9 : List (HloOp τ sig (Elt F)) :=
  [ unary main_arg1 main_v246 (extractStridedSlice S3x8192x64 ![6, 0, 0] · slices_S12x8192x64_S3x8192x64_6_0_0),
    unary main_arg2 main_v247 (extractStridedSlice S3x8192x1 ![6, 0, 0] · slices_S12x8192x1_S3x8192x1_6_0_0),
    unary main_arg3 main_v248 (extractStridedSlice S3x4x1024 ![6, 0, 0] · slices_S12x4x1024_S3x4x1024_6_0_0),
    unary main_arg4 main_v249 (extractStridedSlice S3x1024x4 ![6, 0, 0] · slices_S12x1024x4_S3x1024x4_6_0_0) ]

set_option maxRecDepth 8192 in
theorem ch9_sub : ∀ op ∈ (ch9 : List (HloOp τ sig (Elt F))), op.bufs ⊆ tcRefs τ sig := by
  refine List.forall_iff_forall_mem.mp ?_
  unfold ch9
  exact ⟨unary_bufs_sub .., unary_bufs_sub .., unary_bufs_sub .., unary_bufs_sub ..⟩

set_option maxRecDepth 8192 in
theorem ch9_fresh : ∀ op ∈ (ch9 : List (HloOp τ sig (Elt F))), op.fresh = ∅ := by
  refine List.forall_iff_forall_mem.mp ?_
  unfold ch9
  exact ⟨rfl, rfl, rfl, rfl⟩

noncomputable def ch10a : List (HloOp τ sig (Elt F)) :=
  [ unary main_v246 main_v250 (extractStridedSlice S1x8192x64 ![0, 0, 0] · slices_S3x8192x64_S1x8192x64_0_0_0),
    reshape main_v250 main_v251 rfl shapeCasts_S1x8192x64_S8192x64,
    unary main_v247 main_v252 (extractStridedSlice S1x8192x1 ![0, 0, 0] · slices_S3x8192x1_S1x8192x1_0_0_0),
    reshape main_v252 main_v253 rfl shapeCasts_S1x8192x1_S8192x1,
    unary main_v248 main_v254 (extractStridedSlice S1x4x1024 ![0, 0, 0] · slices_S3x4x1024_S1x4x1024_0_0_0),
    reshape main_v254 main_v255 rfl shapeCasts_S1x4x1024_S4x1024,
    unary main_v249 main_v256 (extractStridedSlice S1x1024x4 ![0, 0, 0] · slices_S3x1024x4_S1x1024x4_0_0_0),
    reshape main_v256 main_v257 rfl shapeCasts_S1x1024x4_S1024x4,
    nullary main_c_38 (constantI S_ 32 15#32),
    unary main_c_38 main_v258 (broadcastInDim S8192x64 ![] bcast_S_S8192x64) ]

noncomputable def ch10b : List (HloOp τ sig (Elt F)) :=
  [ binary main_v251 main_v258 main_v259 (andi),
    nullary main_c_39 (constantI S_ 32 4#32),
    unary main_c_39 main_v260 (broadcastInDim S8192x64 ![] bcast_S_S8192x64),
    binary main_v251 main_v260 main_v261 (Host.shrsi),
    nullary main_c_40 (constantI S_ 32 15#32),
    unary main_c_40 main_v262 (broadcastInDim S8192x64 ![] bcast_S_S8192x64),
    binary main_v261 main_v262 main_v263 (andi),
    unary main_v259 main_v264 (broadcastInDim S8192x64x1 ![0, 1] bcast_S8192x64_S8192x64x1_0_1),
    unary main_v263 main_v265 (broadcastInDim S8192x64x1 ![0, 1] bcast_S8192x64_S8192x64x1_0_1),
    binary main_v264 main_v265 main_v266 (fun a b => concatenate S8192x64x2 2 [⟨S8192x64x1, a⟩, ⟨S8192x64x1, b⟩] concatenates_S8192x64x1_S8192x64x1_S8192x64x2_d2),
    reshape main_v266 main_v267 rfl shapeCasts_S8192x64x2_S8192x128,
    unary main_v267 main_v268 (sitofp .f32),
    nullary main_cst_41 (constant S_ .f32 0x41700000#32),
    unary main_cst_41 main_v269 (broadcastInDim S8192x128 ![] bcast_S_S8192x128),
    binary main_v268 main_v269 main_v270 (Host.divf),
    nullary main_cst_42 (constant S_ .f32 0x40000000#32),
    unary main_cst_42 main_v271 (broadcastInDim S8192x128 ![] bcast_S_S8192x128),
    binary main_v270 main_v271 main_v272 (mulf),
    nullary main_cst_43 (constant S_ .f32 0x3F800000#32),
    unary main_cst_43 main_v273 (broadcastInDim S8192x128 ![] bcast_S_S8192x128),
    binary main_v272 main_v273 main_v274 (subf),
    unary main_v253 main_v275 (broadcastInDim S8192x128 ![0, 1] bcast_S8192x1_S8192x128_0_1),
    binary main_v274 main_v275 main_v276 (mulf),
    reshape main_v276 main_v277 rfl shapeCasts_S8192x128_S1024x1024,
    unary main_v277 main_v278 (transpose S1024x1024 [1, 0] · transposes_S1024x1024_S1024x1024_1_0),
    binary main_v245 main_v278 main_v279 (fun l r => Host.dotGeneral dot_S4096x1024_S1024x1024_S4096x1024_1_0_0_1_n_n none l r),
    unary main_v255 main_v280 (transpose S1024x4 [1, 0] · transposes_S4x1024_S1024x4_1_0),
    binary main_v245 main_v280 main_v281 (fun l r => Host.dotGeneral dot_S4096x1024_S1024x4_S4096x4_1_0_0_1_n_n none l r),
    unary main_v257 main_v282 (transpose S4x1024 [1, 0] · transposes_S1024x4_S4x1024_1_0),
    binary main_v281 main_v282 main_v283 (fun l r => Host.dotGeneral dot_S4096x4_S4x1024_S4096x1024_1_0_0_1_n_n none l r),
    binary main_v279 main_v283 main_v284 (addf),
    TRef.nullary main_call5.cst (constant S_ .f32 0x00000000#32),
    TRef.unary main_call5.cst main_call5.v0 (broadcastInDim S4096x1024 ![] bcast_S_S4096x1024),
    TRef.binary (.of main_v284) main_call5.v0 main_call5.v1 maximumf ]

noncomputable def ch10 : List (HloOp τ sig (Elt F)) := ch10a ++ ch10b

set_option maxRecDepth 8192 in
theorem ch10a_sub : ∀ op ∈ (ch10a : List (HloOp τ sig (Elt F))), op.bufs ⊆ tcRefs τ sig := by
  refine List.forall_iff_forall_mem.mp ?_
  unfold ch10a
  exact ⟨unary_bufs_sub .., reshape_bufs_sub .., unary_bufs_sub .., reshape_bufs_sub .., unary_bufs_sub .., reshape_bufs_sub .., unary_bufs_sub .., reshape_bufs_sub .., nullary_bufs_sub .., unary_bufs_sub ..⟩

set_option maxRecDepth 8192 in
theorem ch10b_sub : ∀ op ∈ (ch10b : List (HloOp τ sig (Elt F))), op.bufs ⊆ tcRefs τ sig := by
  refine List.forall_iff_forall_mem.mp ?_
  unfold ch10b
  exact ⟨binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., nullary_bufs_sub .., unary_bufs_sub .., binary_bufs_sub ..⟩

theorem ch10_sub : ∀ op ∈ (ch10 : List (HloOp τ sig (Elt F))), op.bufs ⊆ tcRefs τ sig := forall_app ch10a_sub ch10b_sub

set_option maxRecDepth 8192 in
theorem ch10a_fresh : ∀ op ∈ (ch10a : List (HloOp τ sig (Elt F))), op.fresh = ∅ := by
  refine List.forall_iff_forall_mem.mp ?_
  unfold ch10a
  exact ⟨rfl, rfl, rfl, rfl, rfl, rfl, rfl, rfl, rfl, rfl⟩

set_option maxRecDepth 8192 in
theorem ch10b_fresh : ∀ op ∈ (ch10b : List (HloOp τ sig (Elt F))), op.fresh = ∅ := by
  refine List.forall_iff_forall_mem.mp ?_
  unfold ch10b
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch10_fresh : ∀ op ∈ (ch10 : List (HloOp τ sig (Elt F))), op.fresh = ∅ := forall_app ch10a_fresh ch10b_fresh

noncomputable def ch11a : List (HloOp τ sig (Elt F)) :=
  [ unary main_v246 main_v286 (extractStridedSlice S1x8192x64 ![1, 0, 0] · slices_S3x8192x64_S1x8192x64_1_0_0),
    reshape main_v286 main_v287 rfl shapeCasts_S1x8192x64_S8192x64,
    unary main_v247 main_v288 (extractStridedSlice S1x8192x1 ![1, 0, 0] · slices_S3x8192x1_S1x8192x1_1_0_0),
    reshape main_v288 main_v289 rfl shapeCasts_S1x8192x1_S8192x1,
    unary main_v248 main_v290 (extractStridedSlice S1x4x1024 ![1, 0, 0] · slices_S3x4x1024_S1x4x1024_1_0_0),
    reshape main_v290 main_v291 rfl shapeCasts_S1x4x1024_S4x1024,
    unary main_v249 main_v292 (extractStridedSlice S1x1024x4 ![1, 0, 0] · slices_S3x1024x4_S1x1024x4_1_0_0),
    reshape main_v292 main_v293 rfl shapeCasts_S1x1024x4_S1024x4,
    nullary main_c_44 (constantI S_ 32 15#32),
    unary main_c_44 main_v294 (broadcastInDim S8192x64 ![] bcast_S_S8192x64),
    binary main_v287 main_v294 main_v295 (andi),
    nullary main_c_45 (constantI S_ 32 4#32),
    unary main_c_45 main_v296 (broadcastInDim S8192x64 ![] bcast_S_S8192x64),
    binary main_v287 main_v296 main_v297 (Host.shrsi),
    nullary main_c_46 (constantI S_ 32 15#32),
    unary main_c_46 main_v298 (broadcastInDim S8192x64 ![] bcast_S_S8192x64),
    binary main_v297 main_v298 main_v299 (andi),
    unary main_v295 main_v300 (broadcastInDim S8192x64x1 ![0, 1] bcast_S8192x64_S8192x64x1_0_1),
    unary main_v299 main_v301 (broadcastInDim S8192x64x1 ![0, 1] bcast_S8192x64_S8192x64x1_0_1),
    binary main_v300 main_v301 main_v302 (fun a b => concatenate S8192x64x2 2 [⟨S8192x64x1, a⟩, ⟨S8192x64x1, b⟩] concatenates_S8192x64x1_S8192x64x1_S8192x64x2_d2),
    reshape main_v302 main_v303 rfl shapeCasts_S8192x64x2_S8192x128,
    unary main_v303 main_v304 (sitofp .f32),
    nullary main_cst_47 (constant S_ .f32 0x41700000#32),
    unary main_cst_47 main_v305 (broadcastInDim S8192x128 ![] bcast_S_S8192x128),
    binary main_v304 main_v305 main_v306 (Host.divf),
    nullary main_cst_48 (constant S_ .f32 0x40000000#32),
    unary main_cst_48 main_v307 (broadcastInDim S8192x128 ![] bcast_S_S8192x128),
    binary main_v306 main_v307 main_v308 (mulf) ]

noncomputable def ch11b : List (HloOp τ sig (Elt F)) :=
  [ nullary main_cst_49 (constant S_ .f32 0x3F800000#32),
    unary main_cst_49 main_v309 (broadcastInDim S8192x128 ![] bcast_S_S8192x128),
    binary main_v308 main_v309 main_v310 (subf),
    unary main_v289 main_v311 (broadcastInDim S8192x128 ![0, 1] bcast_S8192x1_S8192x128_0_1),
    binary main_v310 main_v311 main_v312 (mulf),
    reshape main_v312 main_v313 rfl shapeCasts_S8192x128_S1024x1024,
    unary main_v313 main_v314 (transpose S1024x1024 [1, 0] · transposes_S1024x1024_S1024x1024_1_0),
    binary main_v285 main_v314 main_v315 (fun l r => Host.dotGeneral dot_S4096x1024_S1024x1024_S4096x1024_1_0_0_1_n_n none l r),
    unary main_v291 main_v316 (transpose S1024x4 [1, 0] · transposes_S4x1024_S1024x4_1_0),
    binary main_v285 main_v316 main_v317 (fun l r => Host.dotGeneral dot_S4096x1024_S1024x4_S4096x4_1_0_0_1_n_n none l r),
    unary main_v293 main_v318 (transpose S4x1024 [1, 0] · transposes_S1024x4_S4x1024_1_0),
    binary main_v317 main_v318 main_v319 (fun l r => Host.dotGeneral dot_S4096x4_S4x1024_S4096x1024_1_0_0_1_n_n none l r),
    binary main_v315 main_v319 main_v320 (addf),
    TRef.nullary main_call6.cst (constant S_ .f32 0x00000000#32),
    TRef.unary main_call6.cst main_call6.v0 (broadcastInDim S4096x1024 ![] bcast_S_S4096x1024),
    TRef.binary (.of main_v320) main_call6.v0 main_call6.v1 maximumf ]

noncomputable def ch11 : List (HloOp τ sig (Elt F)) := ch11a ++ ch11b

set_option maxRecDepth 8192 in
theorem ch11a_sub : ∀ op ∈ (ch11a : List (HloOp τ sig (Elt F))), op.bufs ⊆ tcRefs τ sig := by
  refine List.forall_iff_forall_mem.mp ?_
  unfold ch11a
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub ..⟩

set_option maxRecDepth 8192 in
theorem ch11b_sub : ∀ op ∈ (ch11b : List (HloOp τ sig (Elt F))), op.bufs ⊆ tcRefs τ sig := by
  refine List.forall_iff_forall_mem.mp ?_
  unfold ch11b
  exact ⟨nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., nullary_bufs_sub .., unary_bufs_sub .., binary_bufs_sub ..⟩

theorem ch11_sub : ∀ op ∈ (ch11 : List (HloOp τ sig (Elt F))), op.bufs ⊆ tcRefs τ sig := forall_app ch11a_sub ch11b_sub

set_option maxRecDepth 8192 in
theorem ch11a_fresh : ∀ op ∈ (ch11a : List (HloOp τ sig (Elt F))), op.fresh = ∅ := by
  refine List.forall_iff_forall_mem.mp ?_
  unfold ch11a
  exact ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ch11b_fresh : ∀ op ∈ (ch11b : List (HloOp τ sig (Elt F))), op.fresh = ∅ := by
  refine List.forall_iff_forall_mem.mp ?_
  unfold ch11b
  exact ⟨rfl, rfl, rfl, rfl, rfl, rfl, rfl, rfl, rfl, rfl, rfl, rfl, rfl, rfl, rfl, rfl⟩

theorem ch11_fresh : ∀ op ∈ (ch11 : List (HloOp τ sig (Elt F))), op.fresh = ∅ := forall_app ch11a_fresh ch11b_fresh

def ch12 : List (HloOp τ sig (Elt F)) :=
  [ unary main_v246 main_v322 (extractStridedSlice S1x8192x64 ![2, 0, 0] · slices_S3x8192x64_S1x8192x64_2_0_0),
    reshape main_v322 main_v323 rfl shapeCasts_S1x8192x64_S8192x64,
    unary main_v247 main_v324 (extractStridedSlice S1x8192x1 ![2, 0, 0] · slices_S3x8192x1_S1x8192x1_2_0_0),
    reshape main_v324 main_v325 rfl shapeCasts_S1x8192x1_S8192x1,
    unary main_v248 main_v326 (extractStridedSlice S1x4x1024 ![2, 0, 0] · slices_S3x4x1024_S1x4x1024_2_0_0),
    reshape main_v326 main_v327 rfl shapeCasts_S1x4x1024_S4x1024,
    unary main_v249 main_v328 (extractStridedSlice S1x1024x4 ![2, 0, 0] · slices_S3x1024x4_S1x1024x4_2_0_0),
    reshape main_v328 main_v329 rfl shapeCasts_S1x1024x4_S1024x4,
    nullary main_c_50 (constantI S_ 32 15#32),
    unary main_c_50 main_v330 (broadcastInDim S8192x64 ![] bcast_S_S8192x64),
    binary main_v323 main_v330 main_v331 (andi),
    nullary main_c_51 (constantI S_ 32 4#32),
    unary main_c_51 main_v332 (broadcastInDim S8192x64 ![] bcast_S_S8192x64),
    binary main_v323 main_v332 main_v333 (Host.shrsi),
    nullary main_c_52 (constantI S_ 32 15#32),
    unary main_c_52 main_v334 (broadcastInDim S8192x64 ![] bcast_S_S8192x64),
    binary main_v333 main_v334 main_v335 (andi),
    unary main_v331 main_v336 (broadcastInDim S8192x64x1 ![0, 1] bcast_S8192x64_S8192x64x1_0_1),
    unary main_v335 main_v337 (broadcastInDim S8192x64x1 ![0, 1] bcast_S8192x64_S8192x64x1_0_1),
    binary main_v336 main_v337 main_v338 (fun a b => concatenate S8192x64x2 2 [⟨S8192x64x1, a⟩, ⟨S8192x64x1, b⟩] concatenates_S8192x64x1_S8192x64x1_S8192x64x2_d2),
    reshape main_v338 main_v339 rfl shapeCasts_S8192x64x2_S8192x128,
    unary main_v339 main_v340 (sitofp .f32),
    nullary main_cst_53 (constant S_ .f32 0x41700000#32),
    unary main_cst_53 main_v341 (broadcastInDim S8192x128 ![] bcast_S_S8192x128),
    binary main_v340 main_v341 main_v342 (Host.divf),
    nullary main_cst_54 (constant S_ .f32 0x40000000#32),
    unary main_cst_54 main_v343 (broadcastInDim S8192x128 ![] bcast_S_S8192x128),
    binary main_v342 main_v343 main_v344 (mulf),
    nullary main_cst_55 (constant S_ .f32 0x3F800000#32),
    unary main_cst_55 main_v345 (broadcastInDim S8192x128 ![] bcast_S_S8192x128),
    binary main_v344 main_v345 main_v346 (subf),
    unary main_v325 main_v347 (broadcastInDim S8192x128 ![0, 1] bcast_S8192x1_S8192x128_0_1),
    binary main_v346 main_v347 main_v348 (mulf),
    reshape main_v348 main_v349 rfl shapeCasts_S8192x128_S1024x1024,
    unary main_v349 main_v350 (transpose S1024x1024 [1, 0] · transposes_S1024x1024_S1024x1024_1_0),
    binary main_v321 main_v350 main_v351 (fun l r => Host.dotGeneral dot_S4096x1024_S1024x1024_S4096x1024_1_0_0_1_n_n none l r),
    unary main_v327 main_v352 (transpose S1024x4 [1, 0] · transposes_S4x1024_S1024x4_1_0),
    binary main_v321 main_v352 main_v353 (fun l r => Host.dotGeneral dot_S4096x1024_S1024x4_S4096x4_1_0_0_1_n_n none l r),
    unary main_v329 main_v354 (transpose S4x1024 [1, 0] · transposes_S1024x4_S4x1024_1_0),
    binary main_v353 main_v354 main_v355 (fun l r => Host.dotGeneral dot_S4096x4_S4x1024_S4096x1024_1_0_0_1_n_n none l r),
    binary main_v351 main_v355 main_v356 (addf),
    binary main_v356 main_v245 main_v357 (addf) ]

set_option maxRecDepth 8192 in
theorem ch12_sub : ∀ op ∈ (ch12 : List (HloOp τ sig (Elt F))), op.bufs ⊆ tcRefs τ sig := by
  refine List.forall_iff_forall_mem.mp ?_
  unfold ch12
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., binary_bufs_sub ..⟩

set_option maxRecDepth 8192 in
theorem ch12_fresh : ∀ op ∈ (ch12 : List (HloOp τ sig (Elt F))), op.fresh = ∅ := by
  refine List.forall_iff_forall_mem.mp ?_
  unfold ch12
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

noncomputable def ch13a : List (HloOp τ sig (Elt F)) :=
  [ unary main_arg5 main_v358 (extractStridedSlice S1x1024 ![1, 0] · slices_S2x1024_S1x1024_1_0),
    reshape main_v358 main_v359 rfl shapeCasts_S1x1024_S1024,
    unary main_arg6 main_v360 (extractStridedSlice S1x1024 ![1, 0] · slices_S2x1024_S1x1024_1_0),
    reshape main_v360 main_v361 rfl shapeCasts_S1x1024_S1024 ]

noncomputable def ch13b : List (HloOp τ sig (Elt F)) :=
  [ nullary main_cst_56 (constant S_ .f32 0x00000000#32),
    binary main_v357 main_cst_56 main_v362 (fun x v => Host.reduceAdd x v reducesTo_S4096x1024_S4096_d1 h_S_),
    unary main_v362 main_v363 (broadcastInDim S4096x1 ![0] bcast_S4096_S4096x1_0),
    nullary main_cst_57 (constant S_ .f32 0x44800000#32),
    unary main_cst_57 main_v364 (broadcastInDim S4096x1 ![] bcast_S_S4096x1),
    binary main_v363 main_v364 main_v365 (Host.divf),
    nullary main_c_58 (constantI S_ 32 0#32),
    TRef.nullary main_call7.cst (constant S_ .f32 0x00000000#32),
    TRef.binary (.of main_v357) main_call7.cst main_call7.v0 (fun x v => Host.reduceAdd x v reducesTo_S4096x1024_S4096_d1 h_S_),
    TRef.unary main_call7.v0 main_call7.v1 (broadcastInDim S4096x1 ![0] bcast_S4096_S4096x1_0),
    TRef.nullary main_call7.cst_0 (constant S_ .f32 0x44800000#32),
    TRef.unary main_call7.cst_0 main_call7.v2 (broadcastInDim S4096x1 ![] bcast_S_S4096x1),
    TRef.binary main_call7.v1 main_call7.v2 main_call7.v3 Host.divf,
    TRef.unary main_call7.v3 main_call7.v4 (broadcastInDim S4096x1024 ![0, 1] bcast_S4096x1_S4096x1024_0_1),
    TRef.binary (.of main_v357) main_call7.v4 main_call7.v5 subf,
    TRef.binary main_call7.v5 main_call7.v5 main_call7.v6 mulf,
    TRef.unary (.of main_c_58) main_call7.v7 (sitofp .f32),
    TRef.nullary main_call7.cst_1 (constant S_ .f32 0x44800000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S4096x1024_S4096_d1 h_S_),
    TRef.unary main_call7.v9 main_call7.v10 (broadcastInDim S4096x1 ![0] bcast_S4096_S4096x1_0),
    TRef.unary main_call7.v8 main_call7.v11 (broadcastInDim S4096x1 ![] bcast_S_S4096x1),
    TRef.binary main_call7.v10 main_call7.v11 main_call7.v12 Host.divf,
    TRef.nullary main_call7.cst_3 (constant S_ .f32 0x00000000#32),
    TRef.binary main_call7.v8 main_call7.cst_3 main_call7.v13 (cmpf .ogt),
    TRef.nullary main_call7.cst_4 (constant S_ .f32 0x7FC00000#32),
    TRef.unary main_call7.cst_4 main_call7_call0.v0 id,
    TRef.unary main_call7_call0.v0 main_call7_call0.v1 (broadcastInDim S4096x1 ![] bcast_S_S4096x1),
    TRef.ternary main_call7.v13 main_call7.v12 main_call7_call0.v1 main_call7_call0.v2 (fun p a b => select (broadcastInDim S4096x1 ![] bcast_S_S4096x1 p) a b),
    unary main_v365 main_v367 (broadcastInDim S4096x1024 ![0, 1] bcast_S4096x1_S4096x1024_0_1),
    binary main_v357 main_v367 main_v368 (subf),
    nullary main_cst_59 (constant S_ .f32 0x3727C5AC#32),
    unary main_cst_59 main_v369 (broadcastInDim S4096x1 ![] bcast_S_S4096x1),
    binary main_v366 main_v369 main_v370 (addf),
    unary main_v370 main_v371 (Host.rsqrt),
    unary main_v371 main_v372 (broadcastInDim S4096x1024 ![0, 1] bcast_S4096x1_S4096x1024_0_1),
    binary main_v368 main_v372 main_v373 (mulf),
    unary main_v359 main_v374 (broadcastInDim S1x1024 ![1] bcast_S1024_S1x1024_1),
    unary main_v374 main_v375 (broadcastInDim S4096x1024 ![0, 1] bcast_S1x1024_S4096x1024_0_1),
    binary main_v373 main_v375 main_v376 (mulf),
    unary main_v361 main_v377 (broadcastInDim S1x1024 ![1] bcast_S1024_S1x1024_1),
    unary main_v377 main_v378 (broadcastInDim S4096x1024 ![0, 1] bcast_S1x1024_S4096x1024_0_1),
    binary main_v376 main_v378 main_v379 (addf) ]

noncomputable def ch13 : List (HloOp τ sig (Elt F)) := ch13a ++ ch13b

set_option maxRecDepth 8192 in
theorem ch13a_sub : ∀ op ∈ (ch13a : List (HloOp τ sig (Elt F))), op.bufs ⊆ tcRefs τ sig := by
  refine List.forall_iff_forall_mem.mp ?_
  unfold ch13a
  exact ⟨unary_bufs_sub .., reshape_bufs_sub .., unary_bufs_sub .., reshape_bufs_sub ..⟩

set_option maxRecDepth 8192 in
theorem ch13b_sub : ∀ op ∈ (ch13b : List (HloOp τ sig (Elt F))), op.bufs ⊆ tcRefs τ sig := by
  refine List.forall_iff_forall_mem.mp ?_
  unfold ch13b
  exact ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ch13_sub : ∀ op ∈ (ch13 : List (HloOp τ sig (Elt F))), op.bufs ⊆ tcRefs τ sig := forall_app ch13a_sub ch13b_sub

set_option maxRecDepth 8192 in
theorem ch13a_fresh : ∀ op ∈ (ch13a : List (HloOp τ sig (Elt F))), op.fresh = ∅ := by
  refine List.forall_iff_forall_mem.mp ?_
  unfold ch13a
  exact ⟨rfl, rfl, rfl, rfl⟩

set_option maxRecDepth 8192 in
theorem ch13b_fresh : ∀ op ∈ (ch13b : List (HloOp τ sig (Elt F))), op.fresh = ∅ := by
  refine List.forall_iff_forall_mem.mp ?_
  unfold ch13b
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch13_fresh : ∀ op ∈ (ch13 : List (HloOp τ sig (Elt F))), op.fresh = ∅ := forall_app ch13a_fresh ch13b_fresh

def ch14 : List (HloOp τ sig (Elt F)) :=
  [ unary main_arg1 main_v380 (extractStridedSlice S3x8192x64 ![9, 0, 0] · slices_S12x8192x64_S3x8192x64_9_0_0),
    unary main_arg2 main_v381 (extractStridedSlice S3x8192x1 ![9, 0, 0] · slices_S12x8192x1_S3x8192x1_9_0_0),
    unary main_arg3 main_v382 (extractStridedSlice S3x4x1024 ![9, 0, 0] · slices_S12x4x1024_S3x4x1024_9_0_0),
    unary main_arg4 main_v383 (extractStridedSlice S3x1024x4 ![9, 0, 0] · slices_S12x1024x4_S3x1024x4_9_0_0) ]

set_option maxRecDepth 8192 in
theorem ch14_sub : ∀ op ∈ (ch14 : List (HloOp τ sig (Elt F))), op.bufs ⊆ tcRefs τ sig := by
  refine List.forall_iff_forall_mem.mp ?_
  unfold ch14
  exact ⟨unary_bufs_sub .., unary_bufs_sub .., unary_bufs_sub .., unary_bufs_sub ..⟩

set_option maxRecDepth 8192 in
theorem ch14_fresh : ∀ op ∈ (ch14 : List (HloOp τ sig (Elt F))), op.fresh = ∅ := by
  refine List.forall_iff_forall_mem.mp ?_
  unfold ch14
  exact ⟨rfl, rfl, rfl, rfl⟩

noncomputable def ch15a : List (HloOp τ sig (Elt F)) :=
  [ unary main_v380 main_v384 (extractStridedSlice S1x8192x64 ![0, 0, 0] · slices_S3x8192x64_S1x8192x64_0_0_0),
    reshape main_v384 main_v385 rfl shapeCasts_S1x8192x64_S8192x64,
    unary main_v381 main_v386 (extractStridedSlice S1x8192x1 ![0, 0, 0] · slices_S3x8192x1_S1x8192x1_0_0_0),
    reshape main_v386 main_v387 rfl shapeCasts_S1x8192x1_S8192x1,
    unary main_v382 main_v388 (extractStridedSlice S1x4x1024 ![0, 0, 0] · slices_S3x4x1024_S1x4x1024_0_0_0),
    reshape main_v388 main_v389 rfl shapeCasts_S1x4x1024_S4x1024,
    unary main_v383 main_v390 (extractStridedSlice S1x1024x4 ![0, 0, 0] · slices_S3x1024x4_S1x1024x4_0_0_0),
    reshape main_v390 main_v391 rfl shapeCasts_S1x1024x4_S1024x4,
    nullary main_c_60 (constantI S_ 32 15#32),
    unary main_c_60 main_v392 (broadcastInDim S8192x64 ![] bcast_S_S8192x64),
    binary main_v385 main_v392 main_v393 (andi),
    nullary main_c_61 (constantI S_ 32 4#32),
    unary main_c_61 main_v394 (broadcastInDim S8192x64 ![] bcast_S_S8192x64),
    binary main_v385 main_v394 main_v395 (Host.shrsi),
    nullary main_c_62 (constantI S_ 32 15#32),
    unary main_c_62 main_v396 (broadcastInDim S8192x64 ![] bcast_S_S8192x64),
    binary main_v395 main_v396 main_v397 (andi),
    unary main_v393 main_v398 (broadcastInDim S8192x64x1 ![0, 1] bcast_S8192x64_S8192x64x1_0_1),
    unary main_v397 main_v399 (broadcastInDim S8192x64x1 ![0, 1] bcast_S8192x64_S8192x64x1_0_1),
    binary main_v398 main_v399 main_v400 (fun a b => concatenate S8192x64x2 2 [⟨S8192x64x1, a⟩, ⟨S8192x64x1, b⟩] concatenates_S8192x64x1_S8192x64x1_S8192x64x2_d2),
    reshape main_v400 main_v401 rfl shapeCasts_S8192x64x2_S8192x128,
    unary main_v401 main_v402 (sitofp .f32),
    nullary main_cst_63 (constant S_ .f32 0x41700000#32),
    unary main_cst_63 main_v403 (broadcastInDim S8192x128 ![] bcast_S_S8192x128),
    binary main_v402 main_v403 main_v404 (Host.divf),
    nullary main_cst_64 (constant S_ .f32 0x40000000#32),
    unary main_cst_64 main_v405 (broadcastInDim S8192x128 ![] bcast_S_S8192x128),
    binary main_v404 main_v405 main_v406 (mulf),
    nullary main_cst_65 (constant S_ .f32 0x3F800000#32),
    unary main_cst_65 main_v407 (broadcastInDim S8192x128 ![] bcast_S_S8192x128),
    binary main_v406 main_v407 main_v408 (subf),
    unary main_v387 main_v409 (broadcastInDim S8192x128 ![0, 1] bcast_S8192x1_S8192x128_0_1),
    binary main_v408 main_v409 main_v410 (mulf),
    reshape main_v410 main_v411 rfl shapeCasts_S8192x128_S1024x1024 ]

noncomputable def ch15b : List (HloOp τ sig (Elt F)) :=
  [ unary main_v411 main_v412 (transpose S1024x1024 [1, 0] · transposes_S1024x1024_S1024x1024_1_0),
    binary main_v379 main_v412 main_v413 (fun l r => Host.dotGeneral dot_S4096x1024_S1024x1024_S4096x1024_1_0_0_1_n_n none l r),
    unary main_v389 main_v414 (transpose S1024x4 [1, 0] · transposes_S4x1024_S1024x4_1_0),
    binary main_v379 main_v414 main_v415 (fun l r => Host.dotGeneral dot_S4096x1024_S1024x4_S4096x4_1_0_0_1_n_n none l r),
    unary main_v391 main_v416 (transpose S4x1024 [1, 0] · transposes_S1024x4_S4x1024_1_0),
    binary main_v415 main_v416 main_v417 (fun l r => Host.dotGeneral dot_S4096x4_S4x1024_S4096x1024_1_0_0_1_n_n none l r),
    binary main_v413 main_v417 main_v418 (addf),
    TRef.nullary main_call8.cst (constant S_ .f32 0x00000000#32),
    TRef.unary main_call8.cst main_call8.v0 (broadcastInDim S4096x1024 ![] bcast_S_S4096x1024),
    TRef.binary (.of main_v418) main_call8.v0 main_call8.v1 maximumf ]

noncomputable def ch15 : List (HloOp τ sig (Elt F)) := ch15a ++ ch15b

set_option maxRecDepth 8192 in
theorem ch15a_sub : ∀ op ∈ (ch15a : List (HloOp τ sig (Elt F))), op.bufs ⊆ tcRefs τ sig := by
  refine List.forall_iff_forall_mem.mp ?_
  unfold ch15a
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub ..⟩

set_option maxRecDepth 8192 in
theorem ch15b_sub : ∀ op ∈ (ch15b : List (HloOp τ sig (Elt F))), op.bufs ⊆ tcRefs τ sig := by
  refine List.forall_iff_forall_mem.mp ?_
  unfold ch15b
  exact ⟨unary_bufs_sub .., binary_bufs_sub .., unary_bufs_sub .., binary_bufs_sub .., unary_bufs_sub .., binary_bufs_sub .., binary_bufs_sub .., nullary_bufs_sub .., unary_bufs_sub .., binary_bufs_sub ..⟩

theorem ch15_sub : ∀ op ∈ (ch15 : List (HloOp τ sig (Elt F))), op.bufs ⊆ tcRefs τ sig := forall_app ch15a_sub ch15b_sub

set_option maxRecDepth 8192 in
theorem ch15a_fresh : ∀ op ∈ (ch15a : List (HloOp τ sig (Elt F))), op.fresh = ∅ := by
  refine List.forall_iff_forall_mem.mp ?_
  unfold ch15a
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ch15b_fresh : ∀ op ∈ (ch15b : List (HloOp τ sig (Elt F))), op.fresh = ∅ := by
  refine List.forall_iff_forall_mem.mp ?_
  unfold ch15b
  exact ⟨rfl, rfl, rfl, rfl, rfl, rfl, rfl, rfl, rfl, rfl⟩

theorem ch15_fresh : ∀ op ∈ (ch15 : List (HloOp τ sig (Elt F))), op.fresh = ∅ := forall_app ch15a_fresh ch15b_fresh

def ch16 : List (HloOp τ sig (Elt F)) :=
  [ unary main_v380 main_v420 (extractStridedSlice S1x8192x64 ![1, 0, 0] · slices_S3x8192x64_S1x8192x64_1_0_0),
    reshape main_v420 main_v421 rfl shapeCasts_S1x8192x64_S8192x64,
    unary main_v381 main_v422 (extractStridedSlice S1x8192x1 ![1, 0, 0] · slices_S3x8192x1_S1x8192x1_1_0_0),
    reshape main_v422 main_v423 rfl shapeCasts_S1x8192x1_S8192x1,
    unary main_v382 main_v424 (extractStridedSlice S1x4x1024 ![1, 0, 0] · slices_S3x4x1024_S1x4x1024_1_0_0),
    reshape main_v424 main_v425 rfl shapeCasts_S1x4x1024_S4x1024,
    unary main_v383 main_v426 (extractStridedSlice S1x1024x4 ![1, 0, 0] · slices_S3x1024x4_S1x1024x4_1_0_0),
    reshape main_v426 main_v427 rfl shapeCasts_S1x1024x4_S1024x4,
    nullary main_c_66 (constantI S_ 32 15#32),
    unary main_c_66 main_v428 (broadcastInDim S8192x64 ![] bcast_S_S8192x64),
    binary main_v421 main_v428 main_v429 (andi),
    nullary main_c_67 (constantI S_ 32 4#32),
    unary main_c_67 main_v430 (broadcastInDim S8192x64 ![] bcast_S_S8192x64),
    binary main_v421 main_v430 main_v431 (Host.shrsi),
    nullary main_c_68 (constantI S_ 32 15#32),
    unary main_c_68 main_v432 (broadcastInDim S8192x64 ![] bcast_S_S8192x64),
    binary main_v431 main_v432 main_v433 (andi),
    unary main_v429 main_v434 (broadcastInDim S8192x64x1 ![0, 1] bcast_S8192x64_S8192x64x1_0_1),
    unary main_v433 main_v435 (broadcastInDim S8192x64x1 ![0, 1] bcast_S8192x64_S8192x64x1_0_1),
    binary main_v434 main_v435 main_v436 (fun a b => concatenate S8192x64x2 2 [⟨S8192x64x1, a⟩, ⟨S8192x64x1, b⟩] concatenates_S8192x64x1_S8192x64x1_S8192x64x2_d2),
    reshape main_v436 main_v437 rfl shapeCasts_S8192x64x2_S8192x128,
    unary main_v437 main_v438 (sitofp .f32),
    nullary main_cst_69 (constant S_ .f32 0x41700000#32),
    unary main_cst_69 main_v439 (broadcastInDim S8192x128 ![] bcast_S_S8192x128),
    binary main_v438 main_v439 main_v440 (Host.divf),
    nullary main_cst_70 (constant S_ .f32 0x40000000#32),
    unary main_cst_70 main_v441 (broadcastInDim S8192x128 ![] bcast_S_S8192x128),
    binary main_v440 main_v441 main_v442 (mulf),
    nullary main_cst_71 (constant S_ .f32 0x3F800000#32),
    unary main_cst_71 main_v443 (broadcastInDim S8192x128 ![] bcast_S_S8192x128),
    binary main_v442 main_v443 main_v444 (subf),
    unary main_v423 main_v445 (broadcastInDim S8192x128 ![0, 1] bcast_S8192x1_S8192x128_0_1),
    binary main_v444 main_v445 main_v446 (mulf),
    reshape main_v446 main_v447 rfl shapeCasts_S8192x128_S1024x1024,
    unary main_v447 main_v448 (transpose S1024x1024 [1, 0] · transposes_S1024x1024_S1024x1024_1_0),
    binary main_v419 main_v448 main_v449 (fun l r => Host.dotGeneral dot_S4096x1024_S1024x1024_S4096x1024_1_0_0_1_n_n none l r),
    unary main_v425 main_v450 (transpose S1024x4 [1, 0] · transposes_S4x1024_S1024x4_1_0),
    binary main_v419 main_v450 main_v451 (fun l r => Host.dotGeneral dot_S4096x1024_S1024x4_S4096x4_1_0_0_1_n_n none l r),
    unary main_v427 main_v452 (transpose S4x1024 [1, 0] · transposes_S1024x4_S4x1024_1_0),
    binary main_v451 main_v452 main_v453 (fun l r => Host.dotGeneral dot_S4096x4_S4x1024_S4096x1024_1_0_0_1_n_n none l r),
    binary main_v449 main_v453 main_v454 (addf),
    TRef.nullary main_call9.cst (constant S_ .f32 0x00000000#32),
    TRef.unary main_call9.cst main_call9.v0 (broadcastInDim S4096x1024 ![] bcast_S_S4096x1024),
    TRef.binary (.of main_v454) main_call9.v0 main_call9.v1 maximumf ]

set_option maxRecDepth 8192 in
theorem ch16_sub : ∀ op ∈ (ch16 : List (HloOp τ sig (Elt F))), op.bufs ⊆ tcRefs τ sig := by
  refine List.forall_iff_forall_mem.mp ?_
  unfold ch16
  exact ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., nullary_bufs_sub .., unary_bufs_sub .., binary_bufs_sub ..⟩

set_option maxRecDepth 8192 in
theorem ch16_fresh : ∀ op ∈ (ch16 : List (HloOp τ sig (Elt F))), op.fresh = ∅ := by
  refine List.forall_iff_forall_mem.mp ?_
  unfold ch16
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

noncomputable def ch17a : List (HloOp τ sig (Elt F)) :=
  [ unary main_v380 main_v456 (extractStridedSlice S1x8192x64 ![2, 0, 0] · slices_S3x8192x64_S1x8192x64_2_0_0),
    reshape main_v456 main_v457 rfl shapeCasts_S1x8192x64_S8192x64,
    unary main_v381 main_v458 (extractStridedSlice S1x8192x1 ![2, 0, 0] · slices_S3x8192x1_S1x8192x1_2_0_0),
    reshape main_v458 main_v459 rfl shapeCasts_S1x8192x1_S8192x1,
    unary main_v382 main_v460 (extractStridedSlice S1x4x1024 ![2, 0, 0] · slices_S3x4x1024_S1x4x1024_2_0_0),
    reshape main_v460 main_v461 rfl shapeCasts_S1x4x1024_S4x1024,
    unary main_v383 main_v462 (extractStridedSlice S1x1024x4 ![2, 0, 0] · slices_S3x1024x4_S1x1024x4_2_0_0),
    reshape main_v462 main_v463 rfl shapeCasts_S1x1024x4_S1024x4,
    nullary main_c_72 (constantI S_ 32 15#32),
    unary main_c_72 main_v464 (broadcastInDim S8192x64 ![] bcast_S_S8192x64) ]

noncomputable def ch17b : List (HloOp τ sig (Elt F)) :=
  [ binary main_v457 main_v464 main_v465 (andi),
    nullary main_c_73 (constantI S_ 32 4#32),
    unary main_c_73 main_v466 (broadcastInDim S8192x64 ![] bcast_S_S8192x64),
    binary main_v457 main_v466 main_v467 (Host.shrsi),
    nullary main_c_74 (constantI S_ 32 15#32),
    unary main_c_74 main_v468 (broadcastInDim S8192x64 ![] bcast_S_S8192x64),
    binary main_v467 main_v468 main_v469 (andi),
    unary main_v465 main_v470 (broadcastInDim S8192x64x1 ![0, 1] bcast_S8192x64_S8192x64x1_0_1),
    unary main_v469 main_v471 (broadcastInDim S8192x64x1 ![0, 1] bcast_S8192x64_S8192x64x1_0_1),
    binary main_v470 main_v471 main_v472 (fun a b => concatenate S8192x64x2 2 [⟨S8192x64x1, a⟩, ⟨S8192x64x1, b⟩] concatenates_S8192x64x1_S8192x64x1_S8192x64x2_d2),
    reshape main_v472 main_v473 rfl shapeCasts_S8192x64x2_S8192x128,
    unary main_v473 main_v474 (sitofp .f32),
    nullary main_cst_75 (constant S_ .f32 0x41700000#32),
    unary main_cst_75 main_v475 (broadcastInDim S8192x128 ![] bcast_S_S8192x128),
    binary main_v474 main_v475 main_v476 (Host.divf),
    nullary main_cst_76 (constant S_ .f32 0x40000000#32),
    unary main_cst_76 main_v477 (broadcastInDim S8192x128 ![] bcast_S_S8192x128),
    binary main_v476 main_v477 main_v478 (mulf),
    nullary main_cst_77 (constant S_ .f32 0x3F800000#32),
    unary main_cst_77 main_v479 (broadcastInDim S8192x128 ![] bcast_S_S8192x128),
    binary main_v478 main_v479 main_v480 (subf),
    unary main_v459 main_v481 (broadcastInDim S8192x128 ![0, 1] bcast_S8192x1_S8192x128_0_1),
    binary main_v480 main_v481 main_v482 (mulf),
    reshape main_v482 main_v483 rfl shapeCasts_S8192x128_S1024x1024,
    unary main_v483 main_v484 (transpose S1024x1024 [1, 0] · transposes_S1024x1024_S1024x1024_1_0),
    binary main_v455 main_v484 main_v485 (fun l r => Host.dotGeneral dot_S4096x1024_S1024x1024_S4096x1024_1_0_0_1_n_n none l r),
    unary main_v461 main_v486 (transpose S1024x4 [1, 0] · transposes_S4x1024_S1024x4_1_0),
    binary main_v455 main_v486 main_v487 (fun l r => Host.dotGeneral dot_S4096x1024_S1024x4_S4096x4_1_0_0_1_n_n none l r),
    unary main_v463 main_v488 (transpose S4x1024 [1, 0] · transposes_S1024x4_S4x1024_1_0),
    binary main_v487 main_v488 main_v489 (fun l r => Host.dotGeneral dot_S4096x4_S4x1024_S4096x1024_1_0_0_1_n_n none l r),
    binary main_v485 main_v489 main_v490 (addf),
    binary main_v490 main_v379 main_v491 (addf) ]

noncomputable def ch17 : List (HloOp τ sig (Elt F)) := ch17a ++ ch17b

set_option maxRecDepth 8192 in
theorem ch17a_sub : ∀ op ∈ (ch17a : List (HloOp τ sig (Elt F))), op.bufs ⊆ tcRefs τ sig := by
  refine List.forall_iff_forall_mem.mp ?_
  unfold ch17a
  exact ⟨unary_bufs_sub .., reshape_bufs_sub .., unary_bufs_sub .., reshape_bufs_sub .., unary_bufs_sub .., reshape_bufs_sub .., unary_bufs_sub .., reshape_bufs_sub .., nullary_bufs_sub .., unary_bufs_sub ..⟩

set_option maxRecDepth 8192 in
theorem ch17b_sub : ∀ op ∈ (ch17b : List (HloOp τ sig (Elt F))), op.bufs ⊆ tcRefs τ sig := by
  refine List.forall_iff_forall_mem.mp ?_
  unfold ch17b
  exact ⟨binary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., reshape_bufs_sub .., unary_bufs_sub .., binary_bufs_sub .., unary_bufs_sub .., binary_bufs_sub .., unary_bufs_sub .., binary_bufs_sub .., binary_bufs_sub .., binary_bufs_sub ..⟩

theorem ch17_sub : ∀ op ∈ (ch17 : List (HloOp τ sig (Elt F))), op.bufs ⊆ tcRefs τ sig := forall_app ch17a_sub ch17b_sub

set_option maxRecDepth 8192 in
theorem ch17a_fresh : ∀ op ∈ (ch17a : List (HloOp τ sig (Elt F))), op.fresh = ∅ := by
  refine List.forall_iff_forall_mem.mp ?_
  unfold ch17a
  exact ⟨rfl, rfl, rfl, rfl, rfl, rfl, rfl, rfl, rfl, rfl⟩

set_option maxRecDepth 8192 in
theorem ch17b_fresh : ∀ op ∈ (ch17b : List (HloOp τ sig (Elt F))), op.fresh = ∅ := by
  refine List.forall_iff_forall_mem.mp ?_
  unfold ch17b
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ch17_fresh : ∀ op ∈ (ch17 : List (HloOp τ sig (Elt F))), op.fresh = ∅ := forall_app ch17a_fresh ch17b_fresh

def ops : List (HloOp τ sig (Elt F)) := ch0 ++ ch1 ++ ch2 ++ ch3 ++ ch4 ++ ch5 ++ ch6 ++ ch7 ++ ch8 ++ ch9 ++ ch10 ++ ch11 ++ ch12 ++ ch13 ++ ch14 ++ ch15 ++ ch16 ++ ch17

theorem ops_sub' : ∀ op ∈ (ops : List (HloOp τ sig (Elt F))), op.bufs ⊆ tcRefs τ sig := by
  unfold ops
  exact forall_app (forall_app (forall_app (forall_app (forall_app (forall_app (forall_app (forall_app (forall_app (forall_app (forall_app (forall_app (forall_app (forall_app (forall_app (forall_app (forall_app (ch0_sub) ch1_sub) ch2_sub) ch3_sub) ch4_sub) ch5_sub) ch6_sub) ch7_sub) ch8_sub) ch9_sub) ch10_sub) ch11_sub) ch12_sub) ch13_sub) ch14_sub) ch15_sub) ch16_sub) ch17_sub
theorem ops_fresh : ∀ op ∈ (ops : List (HloOp τ sig (Elt F))), op.fresh = ∅ := by
  unfold ops
  exact forall_app (forall_app (forall_app (forall_app (forall_app (forall_app (forall_app (forall_app (forall_app (forall_app (forall_app (forall_app (forall_app (forall_app (forall_app (forall_app (forall_app (ch0_fresh) ch1_fresh) ch2_fresh) ch3_fresh) ch4_fresh) ch5_fresh) ch6_fresh) ch7_fresh) ch8_fresh) ch9_fresh) ch10_fresh) ch11_fresh) ch12_fresh) ch13_fresh) ch14_fresh) ch15_fresh) ch16_fresh) ch17_fresh

attribute [irreducible] ops

theorem ops_sub : (ops : List (HloOp τ sig (Elt F))).Forall fun op => op.bufs ⊆ tcRefs τ sig := List.forall_iff_forall_mem.mpr ops_sub'

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefMain.lean ====
import proofs.«416238_j53798760350388_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- Each printed window of the program, its outlined functions opened at their call sites, is a stretch of the operation list.
set_option maxRecDepth 8192 in
set_option maxHeartbeats 4000000 in
theorem main_part0_eq (c : Dev nD) : main_part0 (F := F) c = seq (ch0 ++ ch1 ++ ch2a) := by
  simp only [main_part0, ch0, ch1, ch2a, fn_relu.body, fn_var.body, fn_where.body, List.cons_append, List.nil_append, seq, bind_assoc, pure_bind] <;> rfl

set_option maxRecDepth 8192 in
set_option maxHeartbeats 4000000 in
theorem main_part1_eq (c : Dev nD) : main_part1 (F := F) c = seq (ch2b ++ ch3a) := by
  simp only [main_part1, ch2b, ch3a, fn_relu.body, fn_var.body, fn_where.body, List.cons_append, List.nil_append, seq, bind_assoc, pure_bind] <;> rfl

set_option maxRecDepth 8192 in
set_option maxHeartbeats 4000000 in
theorem main_part2_eq (c : Dev nD) : main_part2 (F := F) c = seq (ch3b ++ ch4 ++ ch5 ++ ch6a) := by
  simp only [main_part2, ch3b, ch4, ch5, ch6a, fn_relu.body, fn_var.body, fn_where.body, List.cons_append, List.nil_append, seq, bind_assoc, pure_bind] <;> rfl

set_option maxRecDepth 8192 in
set_option maxHeartbeats 4000000 in
theorem main_part3_eq (c : Dev nD) : main_part3 (F := F) c = seq (ch6b ++ ch7a) := by
  simp only [main_part3, ch6b, ch7a, fn_relu.body, fn_var.body, fn_where.body, List.cons_append, List.nil_append, seq, bind_assoc, pure_bind] <;> rfl

set_option maxRecDepth 8192 in
set_option maxHeartbeats 4000000 in
theorem main_part4_eq (c : Dev nD) : main_part4 (F := F) c = seq (ch7b ++ ch8 ++ ch9 ++ ch10a) := by
  simp only [main_part4, ch7b, ch8, ch9, ch10a, fn_relu.body, fn_var.body, fn_where.body, List.cons_append, List.nil_append, seq, bind_assoc, pure_bind] <;> rfl

set_option maxRecDepth 8192 in
set_option maxHeartbeats 4000000 in
theorem main_part5_eq (c : Dev nD) : main_part5 (F := F) c = seq (ch10b ++ ch11a) := by
  simp only [main_part5, ch10b, ch11a, fn_relu.body, fn_var.body, fn_where.body, List.cons_append, List.nil_append, seq, bind_assoc, pure_bind] <;> rfl

set_option maxRecDepth 8192 in
set_option maxHeartbeats 4000000 in
theorem main_part6_eq (c : Dev nD) : main_part6 (F := F) c = seq (ch11b ++ ch12 ++ ch13a) := by
  simp only [main_part6, ch11b, ch12, ch13a, fn_relu.body, fn_var.body, fn_where.body, List.cons_append, List.nil_append, seq, bind_assoc, pure_bind] <;> rfl

set_option maxRecDepth 8192 in
set_option maxHeartbeats 4000000 in
theorem main_part7_eq (c : Dev nD) : main_part7 (F := F) c = seq (ch13b ++ ch14 ++ ch15a) := by
  simp only [main_part7, ch13b, ch14, ch15a, fn_relu.body, fn_var.body, fn_where.body, List.cons_append, List.nil_append, seq, bind_assoc, pure_bind] <;> rfl

set_option maxRecDepth 8192 in
set_option maxHeartbeats 4000000 in
theorem main_part8_eq (c : Dev nD) : main_part8 (F := F) c = seq (ch15b ++ ch16 ++ ch17a) := by
  simp only [main_part8, ch15b, ch16, ch17a, fn_relu.body, fn_var.body, fn_where.body, List.cons_append, List.nil_append, seq, bind_assoc, pure_bind] <;> rfl

set_option maxRecDepth 8192 in
set_option maxHeartbeats 4000000 in
theorem main_part9_eq (c : Dev nD) : main_part9 (F := F) c = seq (ch17b) := by
  simp only [main_part9, ch17b, fn_relu.body, fn_var.body, fn_where.body, List.cons_append, List.nil_append, seq, bind_assoc, pure_bind] <;> rfl

-- The windows in order are the whole list.
theorem main_eq (c : Dev nD) : main (F := F) c = seq ops := by
  simp only [main, main_part0_eq c, main_part1_eq c, main_part2_eq c, main_part3_eq c, main_part4_eq c, main_part5_eq c, main_part6_eq c, main_part7_eq c, main_part8_eq c, main_part9_eq c, ops, ch2, ch3, ch6, ch7, ch10, ch11, ch13, ch15, ch17, seq_append, bind_assoc]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefFns.lean ====
import proofs.«416238_j53798760350388_3_alg».proof.ReferenceIdeal
import proofs.«416238_j53798760350388_3_alg».proof.Proof.Gen.ReferenceIdeal

noncomputable section

namespace Cert.ReferenceIdeal.RefRun

open Cert.ReferenceIdeal Cert.ReferenceIdeal.Gen Idealize.ShloMosaic

variable {F : FTy → Type} [FloatOps F]

-- A cut of three consecutive layers out of a twelve-layer parameter array.
def fn0 (x0 : IVec S12x8192x64 32) : IVec S3x8192x64 32 :=
  have t0 : IVec S3x8192x64 32 := (extractStridedSlice S3x8192x64 ![0, 0, 0] · slices_S12x8192x64_S3x8192x64_0_0_0) x0
  t0

def fn1 (x0 : FVec F S12x8192x1 .f32) : FVec F S3x8192x1 .f32 :=
  have t0 : FVec F S3x8192x1 .f32 := (extractStridedSlice S3x8192x1 ![0, 0, 0] · slices_S12x8192x1_S3x8192x1_0_0_0) x0
  t0

def fn2 (x0 : FVec F S12x4x1024 .f32) : FVec F S3x4x1024 .f32 :=
  have t0 : FVec F S3x4x1024 .f32 := (extractStridedSlice S3x4x1024 ![0, 0, 0] · slices_S12x4x1024_S3x4x1024_0_0_0) x0
  t0

def fn3 (x0 : FVec F S12x1024x4 .f32) : FVec F S3x1024x4 .f32 :=
  have t0 : FVec F S3x1024x4 .f32 := (extractStridedSlice S3x1024x4 ![0, 0, 0] · slices_S12x1024x4_S3x1024x4_0_0_0) x0
  t0

-- One layer's weights: each word unpacked into its two 4-bit fields, a field n standing for (n / 15 · 2 − 1) · norm, 128 weights a group, laid out as a 1024 × 1024 matrix.
def dq2 (q2 : IVec S8192x64 32) (n2 : FVec F S8192x1 .f32) : FVec F S1024x1024 .f32 :=
  have t8 : IVec S_ 32 := constantI S_ 32 15#32
  have t9 : IVec S8192x64 32 := (broadcastInDim S8192x64 ![] bcast_S_S8192x64) t8
  have t10 : IVec S8192x64 32 := (andi) q2 t9
  have t11 : IVec S_ 32 := constantI S_ 32 4#32
  have t12 : IVec S8192x64 32 := (broadcastInDim S8192x64 ![] bcast_S_S8192x64) t11
  have t13 : IVec S8192x64 32 := (Host.shrsi) q2 t12
  have t14 : IVec S_ 32 := constantI S_ 32 15#32
  have t15 : IVec S8192x64 32 := (broadcastInDim S8192x64 ![] bcast_S_S8192x64) t14
  have t16 : IVec S8192x64 32 := (andi) t13 t15
  have t17 : IVec S8192x64x1 32 := (broadcastInDim S8192x64x1 ![0, 1] bcast_S8192x64_S8192x64x1_0_1) t10
  have t18 : IVec S8192x64x1 32 := (broadcastInDim S8192x64x1 ![0, 1] bcast_S8192x64_S8192x64x1_0_1) t16
  have t19 : IVec S8192x64x2 32 := (fun a b => concatenate S8192x64x2 2 [⟨S8192x64x1, a⟩, ⟨S8192x64x1, b⟩] concatenates_S8192x64x1_S8192x64x1_S8192x64x2_d2) t17 t18
  have t20 : IVec S8192x128 32 := shapeCast S8192x128 t19 shapeCasts_S8192x64x2_S8192x128
  have t21 : FVec F S8192x128 .f32 := (sitofp .f32) t20
  have t22 : FVec F S_ .f32 := constant S_ .f32 0x41700000#32
  have t23 : FVec F S8192x128 .f32 := (broadcastInDim S8192x128 ![] bcast_S_S8192x128) t22
  have t24 : FVec F S8192x128 .f32 := (Host.divf) t21 t23
  have t25 : FVec F S_ .f32 := constant S_ .f32 0x40000000#32
  have t26 : FVec F S8192x128 .f32 := (broadcastInDim S8192x128 ![] bcast_S_S8192x128) t25
  have t27 : FVec F S8192x128 .f32 := (mulf) t24 t26
  have t28 : FVec F S_ .f32 := constant S_ .f32 0x3F800000#32
  have t29 : FVec F S8192x128 .f32 := (broadcastInDim S8192x128 ![] bcast_S_S8192x128) t28
  have t30 : FVec F S8192x128 .f32 := (subf) t27 t29
  have t31 : FVec F S8192x128 .f32 := (broadcastInDim S8192x128 ![0, 1] bcast_S8192x1_S8192x128_0_1) n2
  have t32 : FVec F S8192x128 .f32 := (mulf) t30 t31
  have t33 : FVec F S1024x1024 .f32 := shapeCast S1024x1024 t32 shapeCasts_S8192x128_S1024x1024
  t33

-- The layer's products: h·wᵀ + (h·t5ᵀ)·t7ᵀ.
def lay (w : FVec F S1024x1024 .f32) (t5 : FVec F S4x1024 .f32) (t7 : FVec F S1024x4 .f32) (h : FVec F S4096x1024 .f32) : FVec F S4096x1024 .f32 :=
  have t34 : FVec F S1024x1024 .f32 := (transpose S1024x1024 [1, 0] · transposes_S1024x1024_S1024x1024_1_0) w
  have t35 : FVec F S4096x1024 .f32 := (fun l r => Host.dotGeneral dot_S4096x1024_S1024x1024_S4096x1024_1_0_0_1_n_n none l r) h t34
  have t36 : FVec F S1024x4 .f32 := (transpose S1024x4 [1, 0] · transposes_S4x1024_S1024x4_1_0) t5
  have t37 : FVec F S4096x4 .f32 := (fun l r => Host.dotGeneral dot_S4096x1024_S1024x4_S4096x4_1_0_0_1_n_n none l r) h t36
  have t38 : FVec F S4x1024 .f32 := (transpose S4x1024 [1, 0] · transposes_S1024x4_S4x1024_1_0) t7
  have t39 : FVec F S4096x1024 .f32 := (fun l r => Host.dotGeneral dot_S4096x4_S4x1024_S4096x1024_1_0_0_1_n_n none l r) t37 t38
  have t40 : FVec F S4096x1024 .f32 := (addf) t35 t39
  t40

-- The layer over slab k of a cut of three layers' parameters.
def lyr (k : ℕ) (hq : S3x8192x64.Slices ![k, 0, 0] S1x8192x64) (hn : S3x8192x1.Slices ![k, 0, 0] S1x8192x1) (ha : S3x4x1024.Slices ![k, 0, 0] S1x4x1024) (hb : S3x1024x4.Slices ![k, 0, 0] S1x1024x4) (x0 : IVec S3x8192x64 32) (x1 : FVec F S3x8192x1 .f32) (x2 : FVec F S3x4x1024 .f32) (x3 : FVec F S3x1024x4 .f32) (x4 : FVec F S4096x1024 .f32) : FVec F S4096x1024 .f32 :=
  lay (dq2 (shapeCast S8192x64 (extractStridedSlice S1x8192x64 ![k, 0, 0] x0 hq) shapeCasts_S1x8192x64_S8192x64)
      (shapeCast S8192x1 (extractStridedSlice S1x8192x1 ![k, 0, 0] x1 hn) shapeCasts_S1x8192x1_S8192x1))
    (shapeCast S4x1024 (extractStridedSlice S1x4x1024 ![k, 0, 0] x2 ha) shapeCasts_S1x4x1024_S4x1024)
    (shapeCast S1024x4 (extractStridedSlice S1x1024x4 ![k, 0, 0] x3 hb) shapeCasts_S1x1024x4_S1024x4) x4

def fn4 (x0 : IVec S3x8192x64 32) (x1 : FVec F S3x8192x1 .f32) (x2 : FVec F S3x4x1024 .f32) (x3 : FVec F S3x1024x4 .f32) (x4 : FVec F S4096x1024 .f32) : FVec F S4096x1024 .f32 :=
  maximumf (lyr 0 slices_S3x8192x64_S1x8192x64_0_0_0 slices_S3x8192x1_S1x8192x1_0_0_0 slices_S3x4x1024_S1x4x1024_0_0_0 slices_S3x1024x4_S1x1024x4_0_0_0 x0 x1 x2 x3 x4) (broadcastInDim S4096x1024 ![] bcast_S_S4096x1024 (constant S_ .f32 0x00000000#32))

def fn5 (x0 : IVec S3x8192x64 32) (x1 : FVec F S3x8192x1 .f32) (x2 : FVec F S3x4x1024 .f32) (x3 : FVec F S3x1024x4 .f32) (x4 : FVec F S4096x1024 .f32) : FVec F S4096x1024 .f32 :=
  maximumf (lyr 1 slices_S3x8192x64_S1x8192x64_1_0_0 slices_S3x8192x1_S1x8192x1_1_0_0 slices_S3x4x1024_S1x4x1024_1_0_0 slices_S3x1024x4_S1x1024x4_1_0_0 x0 x1 x2 x3 x4) (broadcastInDim S4096x1024 ![] bcast_S_S4096x1024 (constant S_ .f32 0x00000000#32))

def fn6 (x0 : IVec S3x8192x64 32) (x1 : FVec F S3x8192x1 .f32) (x2 : FVec F S3x4x1024 .f32) (x3 : FVec F S3x1024x4 .f32) (x4 : FVec F S4096x1024 .f32) (x5 : FVec F S4096x1024 .f32) : FVec F S4096x1024 .f32 :=
  addf (lyr 2 slices_S3x8192x64_S1x8192x64_2_0_0 slices_S3x8192x1_S1x8192x1_2_0_0 slices_S3x4x1024_S1x4x1024_2_0_0 slices_S3x1024x4_S1x1024x4_2_0_0 x0 x1 x2 x3 x4) x5

-- The normalisation of every row with gain and offset row k.
def lnorm (k : ℕ) (hs : S2x1024.Slices ![k, 0] S1x1024) (x0 : FVec F S2x1024 .f32) (x1 : FVec F S2x1024 .f32) (x2 : FVec F S4096x1024 .f32) : FVec F S4096x1024 .f32 :=
  have t0 : FVec F S1x1024 .f32 := extractStridedSlice S1x1024 ![k, 0] x0 hs
  have t1 : FVec F S1024 .f32 := shapeCast S1024 t0 shapeCasts_S1x1024_S1024
  have t2 : FVec F S1x1024 .f32 := extractStridedSlice S1x1024 ![k, 0] x1 hs
  have t3 : FVec F S1024 .f32 := shapeCast S1024 t2 shapeCasts_S1x1024_S1024
  have t4 : FVec F S_ .f32 := constant S_ .f32 0x00000000#32
  have t5 : FVec F S4096 .f32 := (fun x v => Host.reduceAdd x v reducesTo_S4096x1024_S4096_d1 h_S_) x2 t4
  have t6 : FVec F S4096x1 .f32 := (broadcastInDim S4096x1 ![0] bcast_S4096_S4096x1_0) t5
  have t7 : FVec F S_ .f32 := constant S_ .f32 0x44800000#32
  have t8 : FVec F S4096x1 .f32 := (broadcastInDim S4096x1 ![] bcast_S_S4096x1) t7
  have t9 : FVec F S4096x1 .f32 := (Host.divf) t6 t8
  have t10 : IVec S_ 32 := constantI S_ 32 0#32
  have t11 : FVec F S_ .f32 := constant S_ .f32 0x00000000#32
  have t12 : FVec F S4096 .f32 := (fun x v => Host.reduceAdd x v reducesTo_S4096x1024_S4096_d1 h_S_) x2 t11
  have t13 : FVec F S4096x1 .f32 := (broadcastInDim S4096x1 ![0] bcast_S4096_S4096x1_0) t12
  have t14 : FVec F S_ .f32 := constant S_ .f32 0x44800000#32
  have t15 : FVec F S4096x1 .f32 := (broadcastInDim S4096x1 ![] bcast_S_S4096x1) t14
  have t16 : FVec F S4096x1 .f32 := (Host.divf) t13 t15
  have t17 : FVec F S4096x1024 .f32 := (broadcastInDim S4096x1024 ![0, 1] bcast_S4096x1_S4096x1024_0_1) t16
  have t18 : FVec F S4096x1024 .f32 := (subf) x2 t17
  have t19 : FVec F S4096x1024 .f32 := (mulf) t18 t18
  have t20 : FVec F S_ .f32 := (sitofp .f32) t10
  have t21 : FVec F S_ .f32 := constant S_ .f32 0x44800000#32
  have t22 : FVec F S_ .f32 := (subf) t21 t20
  have t23 : FVec F S_ .f32 := constant S_ .f32 0x00000000#32
  have t24 : FVec F S4096 .f32 := (fun x v => Host.reduceAdd x v reducesTo_S4096x1024_S4096_d1 h_S_) t19 t23
  have t25 : FVec F S4096x1 .f32 := (broadcastInDim S4096x1 ![0] bcast_S4096_S4096x1_0) t24
  have t26 : FVec F S4096x1 .f32 := (broadcastInDim S4096x1 ![] bcast_S_S4096x1) t22
  have t27 : FVec F S4096x1 .f32 := (Host.divf) t25 t26
  have t28 : FVec F S_ .f32 := constant S_ .f32 0x00000000#32
  have t29 : IVec S_ 1 := (cmpf .ogt) t22 t28
  have t30 : FVec F S_ .f32 := constant S_ .f32 0x7FC00000#32
  have t31 : FVec F S_ .f32 := (id) t30
  have t32 : FVec F S4096x1 .f32 := (broadcastInDim S4096x1 ![] bcast_S_S4096x1) t31
  have t33 : FVec F S4096x1 .f32 := (fun p a b => select (broadcastInDim S4096x1 ![] bcast_S_S4096x1 p) a b) t29 t27 t32
  have t34 : FVec F S4096x1024 .f32 := (broadcastInDim S4096x1024 ![0, 1] bcast_S4096x1_S4096x1024_0_1) t9
  have t35 : FVec F S4096x1024 .f32 := (subf) x2 t34
  have t36 : FVec F S_ .f32 := constant S_ .f32 0x3727C5AC#32
  have t37 : FVec F S4096x1 .f32 := (broadcastInDim S4096x1 ![] bcast_S_S4096x1) t36
  have t38 : FVec F S4096x1 .f32 := (addf) t33 t37
  have t39 : FVec F S4096x1 .f32 := (Host.rsqrt) t38
  have t40 : FVec F S4096x1024 .f32 := (broadcastInDim S4096x1024 ![0, 1] bcast_S4096x1_S4096x1024_0_1) t39
  have t41 : FVec F S4096x1024 .f32 := (mulf) t35 t40
  have t42 : FVec F S1x1024 .f32 := (broadcastInDim S1x1024 ![1] bcast_S1024_S1x1024_1) t1
  have t43 : FVec F S4096x1024 .f32 := (broadcastInDim S4096x1024 ![0, 1] bcast_S1x1024_S4096x1024_0_1) t42
  have t44 : FVec F S4096x1024 .f32 := (mulf) t41 t43
  have t45 : FVec F S1x1024 .f32 := (broadcastInDim S1x1024 ![1] bcast_S1024_S1x1024_1) t3
  have t46 : FVec F S4096x1024 .f32 := (broadcastInDim S4096x1024 ![0, 1] bcast_S1x1024_S4096x1024_0_1) t45
  have t47 : FVec F S4096x1024 .f32 := (addf) t44 t46
  t47

def fn7 (x0 x1 : FVec F S2x1024 .f32) (x2 : FVec F S4096x1024 .f32) : FVec F S4096x1024 .f32 := lnorm 0 slices_S2x1024_S1x1024_0_0 x0 x1 x2

def fn16 (x0 x1 : FVec F S2x1024 .f32) (x2 : FVec F S4096x1024 .f32) : FVec F S4096x1024 .f32 := lnorm 1 slices_S2x1024_S1x1024_1_0 x0 x1 x2

def fn8 (x0 : IVec S12x8192x64 32) : IVec S3x8192x64 32 :=
  have t0 : IVec S3x8192x64 32 := (extractStridedSlice S3x8192x64 ![3, 0, 0] · slices_S12x8192x64_S3x8192x64_3_0_0) x0
  t0

def fn9 (x0 : FVec F S12x8192x1 .f32) : FVec F S3x8192x1 .f32 :=
  have t0 : FVec F S3x8192x1 .f32 := (extractStridedSlice S3x8192x1 ![3, 0, 0] · slices_S12x8192x1_S3x8192x1_3_0_0) x0
  t0

def fn10 (x0 : FVec F S12x4x1024 .f32) : FVec F S3x4x1024 .f32 :=
  have t0 : FVec F S3x4x1024 .f32 := (extractStridedSlice S3x4x1024 ![3, 0, 0] · slices_S12x4x1024_S3x4x1024_3_0_0) x0
  t0

def fn11 (x0 : FVec F S12x1024x4 .f32) : FVec F S3x1024x4 .f32 :=
  have t0 : FVec F S3x1024x4 .f32 := (extractStridedSlice S3x1024x4 ![3, 0, 0] · slices_S12x1024x4_S3x1024x4_3_0_0) x0
  t0

def fn12 (x0 : IVec S12x8192x64 32) : IVec S3x8192x64 32 :=
  have t0 : IVec S3x8192x64 32 := (extractStridedSlice S3x8192x64 ![6, 0, 0] · slices_S12x8192x64_S3x8192x64_6_0_0) x0
  t0

def fn13 (x0 : FVec F S12x8192x1 .f32) : FVec F S3x8192x1 .f32 :=
  have t0 : FVec F S3x8192x1 .f32 := (extractStridedSlice S3x8192x1 ![6, 0, 0] · slices_S12x8192x1_S3x8192x1_6_0_0) x0
  t0

def fn14 (x0 : FVec F S12x4x1024 .f32) : FVec F S3x4x1024 .f32 :=
  have t0 : FVec F S3x4x1024 .f32 := (extractStridedSlice S3x4x1024 ![6, 0, 0] · slices_S12x4x1024_S3x4x1024_6_0_0) x0
  t0

def fn15 (x0 : FVec F S12x1024x4 .f32) : FVec F S3x1024x4 .f32 :=
  have t0 : FVec F S3x1024x4 .f32 := (extractStridedSlice S3x1024x4 ![6, 0, 0] · slices_S12x1024x4_S3x1024x4_6_0_0) x0
  t0

def fn17 (x0 : IVec S12x8192x64 32) : IVec S3x8192x64 32 :=
  have t0 : IVec S3x8192x64 32 := (extractStridedSlice S3x8192x64 ![9, 0, 0] · slices_S12x8192x64_S3x8192x64_9_0_0) x0
  t0

def fn18 (x0 : FVec F S12x8192x1 .f32) : FVec F S3x8192x1 .f32 :=
  have t0 : FVec F S3x8192x1 .f32 := (extractStridedSlice S3x8192x1 ![9, 0, 0] · slices_S12x8192x1_S3x8192x1_9_0_0) x0
  t0

def fn19 (x0 : FVec F S12x4x1024 .f32) : FVec F S3x4x1024 .f32 :=
  have t0 : FVec F S3x4x1024 .f32 := (extractStridedSlice S3x4x1024 ![9, 0, 0] · slices_S12x4x1024_S3x4x1024_9_0_0) x0
  t0

def fn20 (x0 : FVec F S12x1024x4 .f32) : FVec F S3x1024x4 .f32 :=
  have t0 : FVec F S3x1024x4 .f32 := (extractStridedSlice S3x1024x4 ![9, 0, 0] · slices_S12x1024x4_S3x1024x4_9_0_0) x0
  t0

-- A residual block: three layers over one cut, a rectifier after the first two, plus the block's input.
def blk (x0 : IVec S3x8192x64 32) (x1 : FVec F S3x8192x1 .f32) (x2 : FVec F S3x4x1024 .f32) (x3 : FVec F S3x1024x4 .f32) (x4 : FVec F S4096x1024 .f32) : FVec F S4096x1024 .f32 :=
  fn6 x0 x1 x2 x3 (fn5 x0 x1 x2 x3 (fn4 x0 x1 x2 x3 x4)) x4

-- The whole program's result as a function of the seven arguments.
def refNet (a0 : FVec F S4096x1024 .f32) (a1 : IVec S12x8192x64 32) (a2 : FVec F S12x8192x1 .f32) (a3 : FVec F S12x4x1024 .f32) (a4 : FVec F S12x1024x4 .f32) (a5 : FVec F S2x1024 .f32) (a6 : FVec F S2x1024 .f32) : FVec F S4096x1024 .f32 :=
  blk (fn17 a1) (fn18 a2) (fn19 a3) (fn20 a4) (fn16 a5 a6 (blk (fn12 a1) (fn13 a2) (fn14 a3) (fn15 a4) (blk (fn8 a1) (fn9 a2) (fn10 a3) (fn11 a4) (fn7 a5 a6 (blk (fn0 a1) (fn1 a2) (fn2 a3) (fn3 a4) (a0))))))

end Cert.ReferenceIdeal.RefRun

end
-- ==== Proof.RefVal.lean ====
import proofs.«416238_j53798760350388_3_alg».proof.Proof.RefOps
import proofs.«416238_j53798760350388_3_alg».proof.Proof.RefFns
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

abbrev ch0_W : List (Ref sig .tc) := [main_v0, main_v1, main_v2, main_v3]

-- A buffer outside the list of those a chunk writes keeps its contents across the chunk.
theorem ch0_keep (r : Ref sig .tc) (h : r ∉ ch0_W) : after ch0 V (no_index (Proc.devRef .tc r)) = V (Proc.devRef .tc r) :=
  after_of_writes_sub ch0 V (by simp only [ch0, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

-- A chunk's output is the chunk's function of the buffers it reads.
theorem ch0_main_v0 : after ch0 V (no_index (Proc.devRef .tc main_v0)) = fn0 (V (Proc.devRef .tc main_arg1)) := by
  simp only [ch0]
  after_results_simp
  try simp only [TRef.ofBuf, TRef.toBuf, cast_eq]
  rfl

theorem ch0_main_v1 : after ch0 V (no_index (Proc.devRef .tc main_v1)) = fn1 (F := F) (V (Proc.devRef .tc main_arg2)) := by
  simp only [ch0]
  after_results_simp
  try simp only [TRef.ofBuf, TRef.toBuf, cast_eq]
  rfl

theorem ch0_main_v2 : after ch0 V (no_index (Proc.devRef .tc main_v2)) = fn2 (F := F) (V (Proc.devRef .tc main_arg3)) := by
  simp only [ch0]
  after_results_simp
  try simp only [TRef.ofBuf, TRef.toBuf, cast_eq]
  rfl

theorem ch0_main_v3 : after ch0 V (no_index (Proc.devRef .tc main_v3)) = fn3 (F := F) (V (Proc.devRef .tc main_arg4)) := by
  simp only [ch0]
  after_results_simp
  try simp only [TRef.ofBuf, TRef.toBuf, cast_eq]
  rfl

abbrev ch1_W : List (Ref sig .tc) := [main_v4, main_v5, main_v6, main_v7, main_v8, main_v9, main_v10, main_v11, main_c, main_v12, main_v13, main_c_0, main_v14, main_v15, main_c_1, main_v16, main_v17, main_v18, main_v19, main_v20, main_v21, main_v22, main_cst, main_v23, main_v24, main_cst_2, main_v25, main_v26, main_cst_3, main_v27, main_v28, main_v29, main_v30, main_v31, main_v32, main_v33, main_v34, main_v35, main_v36, main_v37, main_v38, main_call0_cst, main_call0_v0, main_v39]

theorem ch1_keep (r : Ref sig .tc) (h : r ∉ ch1_W) : after ch1 V (no_index (Proc.devRef .tc r)) = V (Proc.devRef .tc r) :=
  after_of_writes_sub ch1 V (by simp only [ch1, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch1_main_v39 : after ch1 V (no_index (Proc.devRef .tc main_v39)) = fn4 (F := F) (V (Proc.devRef .tc main_v0)) (V (Proc.devRef .tc main_v1)) (V (Proc.devRef .tc main_v2)) (V (Proc.devRef .tc main_v3)) (V (Proc.devRef .tc main_arg0)) := by
  simp only [ch1]
  after_results_simp
  try simp only [TRef.ofBuf, TRef.toBuf, cast_eq]
  rfl

abbrev ch2_W : List (Ref sig .tc) := [main_v40, main_v41, main_v42, main_v43, main_v44, main_v45, main_v46, main_v47, main_c_4, main_v48, main_v49, main_c_5, main_v50, main_v51, main_c_6, main_v52, main_v53, main_v54, main_v55, main_v56, main_v57, main_v58, main_cst_7, main_v59, main_v60, main_cst_8, main_v61, main_v62, main_cst_9, main_v63, main_v64, main_v65, main_v66, main_v67, main_v68, main_v69, main_v70, main_v71, main_v72, main_v73, main_v74, main_call1_cst, main_call1_v0, main_v75]

theorem ch2_keep (r : Ref sig .tc) (h : r ∉ ch2_W) : after ch2 V (no_index (Proc.devRef .tc r)) = V (Proc.devRef .tc r) :=
  after_of_writes_sub ch2 V (by simp only [ch2, ch2a, ch2b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch2_main_v75 : after ch2 V (no_index (Proc.devRef .tc main_v75)) = fn5 (F := F) (V (Proc.devRef .tc main_v0)) (V (Proc.devRef .tc main_v1)) (V (Proc.devRef .tc main_v2)) (V (Proc.devRef .tc main_v3)) (V (Proc.devRef .tc main_v39)) := by
  simp only [ch2, ch2a, ch2b, List.cons_append, List.nil_append]
  after_results_simp
  try simp only [TRef.ofBuf, TRef.toBuf, cast_eq]
  rfl

abbrev ch3_W : List (Ref sig .tc) := [main_v76, main_v77, main_v78, main_v79, main_v80, main_v81, main_v82, main_v83, main_c_10, main_v84, main_v85, main_c_11, main_v86, main_v87, main_c_12, main_v88, main_v89, main_v90, main_v91, main_v92, main_v93, main_v94, main_cst_13, main_v95, main_v96, main_cst_14, main_v97, main_v98, main_cst_15, main_v99, main_v100, main_v101, main_v102, main_v103, main_v104, main_v105, main_v106, main_v107, main_v108, main_v109, main_v110, main_v111]

theorem ch3_keep (r : Ref sig .tc) (h : r ∉ ch3_W) : after ch3 V (no_index (Proc.devRef .tc r)) = V (Proc.devRef .tc r) :=
  after_of_writes_sub ch3 V (by simp only [ch3, ch3a, ch3b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch3_main_v111 : after ch3 V (no_index (Proc.devRef .tc main_v111)) = fn6 (F := F) (V (Proc.devRef .tc main_v0)) (V (Proc.devRef .tc main_v1)) (V (Proc.devRef .tc main_v2)) (V (Proc.devRef .tc main_v3)) (V (Proc.devRef .tc main_v75)) (V (Proc.devRef .tc main_arg0)) := by
  simp only [ch3, ch3a, ch3b, List.cons_append, List.nil_append]
  after_results_simp
  try simp only [TRef.ofBuf, TRef.toBuf, cast_eq]
  rfl

abbrev ch4_W : List (Ref sig .tc) := [main_v112, main_v113, main_v114, main_v115, main_cst_16, main_v116, main_v117, main_cst_17, main_v118, main_v119, main_c_18, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v120, main_v121, main_v122, main_cst_19, main_v123, main_v124, main_v125, main_v126, main_v127, main_v128, main_v129, main_v130, main_v131, main_v132, main_v133]

theorem ch4_keep (r : Ref sig .tc) (h : r ∉ ch4_W) : after ch4 V (no_index (Proc.devRef .tc r)) = V (Proc.devRef .tc r) :=
  after_of_writes_sub ch4 V (by simp only [ch4, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch4_main_v133 : after ch4 V (no_index (Proc.devRef .tc main_v133)) = fn7 (F := F) (V (Proc.devRef .tc main_arg5)) (V (Proc.devRef .tc main_arg6)) (V (Proc.devRef .tc main_v111)) := by
  simp only [ch4]
  after_results_simp
  try simp only [TRef.ofBuf, TRef.toBuf, cast_eq]
  rfl

abbrev ch5_W : List (Ref sig .tc) := [main_v134, main_v135, main_v136, main_v137]

theorem ch5_keep (r : Ref sig .tc) (h : r ∉ ch5_W) : after ch5 V (no_index (Proc.devRef .tc r)) = V (Proc.devRef .tc r) :=
  after_of_writes_sub ch5 V (by simp only [ch5, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch5_main_v134 : after ch5 V (no_index (Proc.devRef .tc main_v134)) = fn8 (V (Proc.devRef .tc main_arg1)) := by
  simp only [ch5]
  after_results_simp
  try simp only [TRef.ofBuf, TRef.toBuf, cast_eq]
  rfl

theorem ch5_main_v135 : after ch5 V (no_index (Proc.devRef .tc main_v135)) = fn9 (F := F) (V (Proc.devRef .tc main_arg2)) := by
  simp only [ch5]
  after_results_simp
  try simp only [TRef.ofBuf, TRef.toBuf, cast_eq]
  rfl

theorem ch5_main_v136 : after ch5 V (no_index (Proc.devRef .tc main_v136)) = fn10 (F := F) (V (Proc.devRef .tc main_arg3)) := by
  simp only [ch5]
  after_results_simp
  try simp only [TRef.ofBuf, TRef.toBuf, cast_eq]
  rfl

theorem ch5_main_v137 : after ch5 V (no_index (Proc.devRef .tc main_v137)) = fn11 (F := F) (V (Proc.devRef .tc main_arg4)) := by
  simp only [ch5]
  after_results_simp
  try simp only [TRef.ofBuf, TRef.toBuf, cast_eq]
  rfl

abbrev ch6_W : List (Ref sig .tc) := [main_v138, main_v139, main_v140, main_v141, main_v142, main_v143, main_v144, main_v145, main_c_20, main_v146, main_v147, main_c_21, main_v148, main_v149, main_c_22, main_v150, main_v151, main_v152, main_v153, main_v154, main_v155, main_v156, main_cst_23, main_v157, main_v158, main_cst_24, main_v159, main_v160, main_cst_25, main_v161, main_v162, main_v163, main_v164, main_v165, main_v166, main_v167, main_v168, main_v169, main_v170, main_v171, main_v172, main_call3_cst, main_call3_v0, main_v173]

theorem ch6_keep (r : Ref sig .tc) (h : r ∉ ch6_W) : after ch6 V (no_index (Proc.devRef .tc r)) = V (Proc.devRef .tc r) :=
  after_of_writes_sub ch6 V (by simp only [ch6, ch6a, ch6b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch6_main_v173 : after ch6 V (no_index (Proc.devRef .tc main_v173)) = fn4 (F := F) (V (Proc.devRef .tc main_v134)) (V (Proc.devRef .tc main_v135)) (V (Proc.devRef .tc main_v136)) (V (Proc.devRef .tc main_v137)) (V (Proc.devRef .tc main_v133)) := by
  simp only [ch6, ch6a, ch6b, List.cons_append, List.nil_append]
  after_results_simp
  try simp only [TRef.ofBuf, TRef.toBuf, cast_eq]
  rfl

abbrev ch7_W : List (Ref sig .tc) := [main_v174, main_v175, main_v176, main_v177, main_v178, main_v179, main_v180, main_v181, main_c_26, main_v182, main_v183, main_c_27, main_v184, main_v185, main_c_28, main_v186, main_v187, main_v188, main_v189, main_v190, main_v191, main_v192, main_cst_29, main_v193, main_v194, main_cst_30, main_v195, main_v196, main_cst_31, main_v197, main_v198, main_v199, main_v200, main_v201, main_v202, main_v203, main_v204, main_v205, main_v206, main_v207, main_v208, main_call4_cst, main_call4_v0, main_v209]

theorem ch7_keep (r : Ref sig .tc) (h : r ∉ ch7_W) : after ch7 V (no_index (Proc.devRef .tc r)) = V (Proc.devRef .tc r) :=
  after_of_writes_sub ch7 V (by simp only [ch7, ch7a, ch7b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch7_main_v209 : after ch7 V (no_index (Proc.devRef .tc main_v209)) = fn5 (F := F) (V (Proc.devRef .tc main_v134)) (V (Proc.devRef .tc main_v135)) (V (Proc.devRef .tc main_v136)) (V (Proc.devRef .tc main_v137)) (V (Proc.devRef .tc main_v173)) := by
  simp only [ch7, ch7a, ch7b, List.cons_append, List.nil_append]
  after_results_simp
  try simp only [TRef.ofBuf, TRef.toBuf, cast_eq]
  rfl

abbrev ch8_W : List (Ref sig .tc) := [main_v210, main_v211, main_v212, main_v213, main_v214, main_v215, main_v216, main_v217, main_c_32, main_v218, main_v219, main_c_33, main_v220, main_v221, main_c_34, main_v222, main_v223, main_v224, main_v225, main_v226, main_v227, main_v228, main_cst_35, main_v229, main_v230, main_cst_36, main_v231, main_v232, main_cst_37, main_v233, main_v234, main_v235, main_v236, main_v237, main_v238, main_v239, main_v240, main_v241, main_v242, main_v243, main_v244, main_v245]

theorem ch8_keep (r : Ref sig .tc) (h : r ∉ ch8_W) : after ch8 V (no_index (Proc.devRef .tc r)) = V (Proc.devRef .tc r) :=
  after_of_writes_sub ch8 V (by simp only [ch8, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch8_main_v245 : after ch8 V (no_index (Proc.devRef .tc main_v245)) = fn6 (F := F) (V (Proc.devRef .tc main_v134)) (V (Proc.devRef .tc main_v135)) (V (Proc.devRef .tc main_v136)) (V (Proc.devRef .tc main_v137)) (V (Proc.devRef .tc main_v209)) (V (Proc.devRef .tc main_v133)) := by
  simp only [ch8]
  after_results_simp
  try simp only [TRef.ofBuf, TRef.toBuf, cast_eq]
  rfl

abbrev ch9_W : List (Ref sig .tc) := [main_v246, main_v247, main_v248, main_v249]

theorem ch9_keep (r : Ref sig .tc) (h : r ∉ ch9_W) : after ch9 V (no_index (Proc.devRef .tc r)) = V (Proc.devRef .tc r) :=
  after_of_writes_sub ch9 V (by simp only [ch9, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch9_main_v246 : after ch9 V (no_index (Proc.devRef .tc main_v246)) = fn12 (V (Proc.devRef .tc main_arg1)) := by
  simp only [ch9]
  after_results_simp
  try simp only [TRef.ofBuf, TRef.toBuf, cast_eq]
  rfl

theorem ch9_main_v247 : after ch9 V (no_index (Proc.devRef .tc main_v247)) = fn13 (F := F) (V (Proc.devRef .tc main_arg2)) := by
  simp only [ch9]
  after_results_simp
  try simp only [TRef.ofBuf, TRef.toBuf, cast_eq]
  rfl

theorem ch9_main_v248 : after ch9 V (no_index (Proc.devRef .tc main_v248)) = fn14 (F := F) (V (Proc.devRef .tc main_arg3)) := by
  simp only [ch9]
  after_results_simp
  try simp only [TRef.ofBuf, TRef.toBuf, cast_eq]
  rfl

theorem ch9_main_v249 : after ch9 V (no_index (Proc.devRef .tc main_v249)) = fn15 (F := F) (V (Proc.devRef .tc main_arg4)) := by
  simp only [ch9]
  after_results_simp
  try simp only [TRef.ofBuf, TRef.toBuf, cast_eq]
  rfl

abbrev ch10_W : List (Ref sig .tc) := [main_v250, main_v251, main_v252, main_v253, main_v254, main_v255, main_v256, main_v257, main_c_38, main_v258, main_v259, main_c_39, main_v260, main_v261, main_c_40, main_v262, main_v263, main_v264, main_v265, main_v266, main_v267, main_v268, main_cst_41, main_v269, main_v270, main_cst_42, main_v271, main_v272, main_cst_43, main_v273, main_v274, main_v275, main_v276, main_v277, main_v278, main_v279, main_v280, main_v281, main_v282, main_v283, main_v284, main_call5_cst, main_call5_v0, main_v285]

theorem ch10_keep (r : Ref sig .tc) (h : r ∉ ch10_W) : after ch10 V (no_index (Proc.devRef .tc r)) = V (Proc.devRef .tc r) :=
  after_of_writes_sub ch10 V (by simp only [ch10, ch10a, ch10b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch10_main_v285 : after ch10 V (no_index (Proc.devRef .tc main_v285)) = fn4 (F := F) (V (Proc.devRef .tc main_v246)) (V (Proc.devRef .tc main_v247)) (V (Proc.devRef .tc main_v248)) (V (Proc.devRef .tc main_v249)) (V (Proc.devRef .tc main_v245)) := by
  simp only [ch10, ch10a, ch10b, List.cons_append, List.nil_append]
  after_results_simp
  try simp only [TRef.ofBuf, TRef.toBuf, cast_eq]
  rfl

abbrev ch11_W : List (Ref sig .tc) := [main_v286, main_v287, main_v288, main_v289, main_v290, main_v291, main_v292, main_v293, main_c_44, main_v294, main_v295, main_c_45, main_v296, main_v297, main_c_46, main_v298, main_v299, main_v300, main_v301, main_v302, main_v303, main_v304, main_cst_47, main_v305, main_v306, main_cst_48, main_v307, main_v308, main_cst_49, main_v309, main_v310, main_v311, main_v312, main_v313, main_v314, main_v315, main_v316, main_v317, main_v318, main_v319, main_v320, main_call6_cst, main_call6_v0, main_v321]

theorem ch11_keep (r : Ref sig .tc) (h : r ∉ ch11_W) : after ch11 V (no_index (Proc.devRef .tc r)) = V (Proc.devRef .tc r) :=
  after_of_writes_sub ch11 V (by simp only [ch11, ch11a, ch11b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch11_main_v321 : after ch11 V (no_index (Proc.devRef .tc main_v321)) = fn5 (F := F) (V (Proc.devRef .tc main_v246)) (V (Proc.devRef .tc main_v247)) (V (Proc.devRef .tc main_v248)) (V (Proc.devRef .tc main_v249)) (V (Proc.devRef .tc main_v285)) := by
  simp only [ch11, ch11a, ch11b, List.cons_append, List.nil_append]
  after_results_simp
  try simp only [TRef.ofBuf, TRef.toBuf, cast_eq]
  rfl

abbrev ch12_W : List (Ref sig .tc) := [main_v322, main_v323, main_v324, main_v325, main_v326, main_v327, main_v328, main_v329, main_c_50, main_v330, main_v331, main_c_51, main_v332, main_v333, main_c_52, main_v334, main_v335, main_v336, main_v337, main_v338, main_v339, main_v340, main_cst_53, main_v341, main_v342, main_cst_54, main_v343, main_v344, main_cst_55, main_v345, main_v346, main_v347, main_v348, main_v349, main_v350, main_v351, main_v352, main_v353, main_v354, main_v355, main_v356, main_v357]

theorem ch12_keep (r : Ref sig .tc) (h : r ∉ ch12_W) : after ch12 V (no_index (Proc.devRef .tc r)) = V (Proc.devRef .tc r) :=
  after_of_writes_sub ch12 V (by simp only [ch12, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch12_main_v357 : after ch12 V (no_index (Proc.devRef .tc main_v357)) = fn6 (F := F) (V (Proc.devRef .tc main_v246)) (V (Proc.devRef .tc main_v247)) (V (Proc.devRef .tc main_v248)) (V (Proc.devRef .tc main_v249)) (V (Proc.devRef .tc main_v321)) (V (Proc.devRef .tc main_v245)) := by
  simp only [ch12]
  after_results_simp
  try simp only [TRef.ofBuf, TRef.toBuf, cast_eq]
  rfl

abbrev ch13_W : List (Ref sig .tc) := [main_v358, main_v359, main_v360, main_v361, main_cst_56, main_v362, main_v363, main_cst_57, main_v364, main_v365, main_c_58, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v366, main_v367, main_v368, main_cst_59, main_v369, main_v370, main_v371, main_v372, main_v373, main_v374, main_v375, main_v376, main_v377, main_v378, main_v379]

theorem ch13_keep (r : Ref sig .tc) (h : r ∉ ch13_W) : after ch13 V (no_index (Proc.devRef .tc r)) = V (Proc.devRef .tc r) :=
  after_of_writes_sub ch13 V (by simp only [ch13, ch13a, ch13b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch13_main_v379 : after ch13 V (no_index (Proc.devRef .tc main_v379)) = fn16 (F := F) (V (Proc.devRef .tc main_arg5)) (V (Proc.devRef .tc main_arg6)) (V (Proc.devRef .tc main_v357)) := by
  simp only [ch13, ch13a, ch13b, List.cons_append, List.nil_append]
  after_results_simp
  try simp only [TRef.ofBuf, TRef.toBuf, cast_eq]
  rfl

abbrev ch14_W : List (Ref sig .tc) := [main_v380, main_v381, main_v382, main_v383]

theorem ch14_keep (r : Ref sig .tc) (h : r ∉ ch14_W) : after ch14 V (no_index (Proc.devRef .tc r)) = V (Proc.devRef .tc r) :=
  after_of_writes_sub ch14 V (by simp only [ch14, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch14_main_v380 : after ch14 V (no_index (Proc.devRef .tc main_v380)) = fn17 (V (Proc.devRef .tc main_arg1)) := by
  simp only [ch14]
  after_results_simp
  try simp only [TRef.ofBuf, TRef.toBuf, cast_eq]
  rfl

theorem ch14_main_v381 : after ch14 V (no_index (Proc.devRef .tc main_v381)) = fn18 (F := F) (V (Proc.devRef .tc main_arg2)) := by
  simp only [ch14]
  after_results_simp
  try simp only [TRef.ofBuf, TRef.toBuf, cast_eq]
  rfl

theorem ch14_main_v382 : after ch14 V (no_index (Proc.devRef .tc main_v382)) = fn19 (F := F) (V (Proc.devRef .tc main_arg3)) := by
  simp only [ch14]
  after_results_simp
  try simp only [TRef.ofBuf, TRef.toBuf, cast_eq]
  rfl

theorem ch14_main_v383 : after ch14 V (no_index (Proc.devRef .tc main_v383)) = fn20 (F := F) (V (Proc.devRef .tc main_arg4)) := by
  simp only [ch14]
  after_results_simp
  try simp only [TRef.ofBuf, TRef.toBuf, cast_eq]
  rfl

abbrev ch15_W : List (Ref sig .tc) := [main_v384, main_v385, main_v386, main_v387, main_v388, main_v389, main_v390, main_v391, main_c_60, main_v392, main_v393, main_c_61, main_v394, main_v395, main_c_62, main_v396, main_v397, main_v398, main_v399, main_v400, main_v401, main_v402, main_cst_63, main_v403, main_v404, main_cst_64, main_v405, main_v406, main_cst_65, main_v407, main_v408, main_v409, main_v410, main_v411, main_v412, main_v413, main_v414, main_v415, main_v416, main_v417, main_v418, main_call8_cst, main_call8_v0, main_v419]

theorem ch15_keep (r : Ref sig .tc) (h : r ∉ ch15_W) : after ch15 V (no_index (Proc.devRef .tc r)) = V (Proc.devRef .tc r) :=
  after_of_writes_sub ch15 V (by simp only [ch15, ch15a, ch15b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch15_main_v419 : after ch15 V (no_index (Proc.devRef .tc main_v419)) = fn4 (F := F) (V (Proc.devRef .tc main_v380)) (V (Proc.devRef .tc main_v381)) (V (Proc.devRef .tc main_v382)) (V (Proc.devRef .tc main_v383)) (V (Proc.devRef .tc main_v379)) := by
  simp only [ch15, ch15a, ch15b, List.cons_append, List.nil_append]
  after_results_simp
  try simp only [TRef.ofBuf, TRef.toBuf, cast_eq]
  rfl

abbrev ch16_W : List (Ref sig .tc) := [main_v420, main_v421, main_v422, main_v423, main_v424, main_v425, main_v426, main_v427, main_c_66, main_v428, main_v429, main_c_67, main_v430, main_v431, main_c_68, main_v432, main_v433, main_v434, main_v435, main_v436, main_v437, main_v438, main_cst_69, main_v439, main_v440, main_cst_70, main_v441, main_v442, main_cst_71, main_v443, main_v444, main_v445, main_v446, main_v447, main_v448, main_v449, main_v450, main_v451, main_v452, main_v453, main_v454, main_call9_cst, main_call9_v0, main_v455]

theorem ch16_keep (r : Ref sig .tc) (h : r ∉ ch16_W) : after ch16 V (no_index (Proc.devRef .tc r)) = V (Proc.devRef .tc r) :=
  after_of_writes_sub ch16 V (by simp only [ch16, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch16_main_v455 : after ch16 V (no_index (Proc.devRef .tc main_v455)) = fn5 (F := F) (V (Proc.devRef .tc main_v380)) (V (Proc.devRef .tc main_v381)) (V (Proc.devRef .tc main_v382)) (V (Proc.devRef .tc main_v383)) (V (Proc.devRef .tc main_v419)) := by
  simp only [ch16]
  after_results_simp
  try simp only [TRef.ofBuf, TRef.toBuf, cast_eq]
  rfl

abbrev ch17_W : List (Ref sig .tc) := [main_v456, main_v457, main_v458, main_v459, main_v460, main_v461, main_v462, main_v463, main_c_72, main_v464, main_v465, main_c_73, main_v466, main_v467, main_c_74, main_v468, main_v469, main_v470, main_v471, main_v472, main_v473, main_v474, main_cst_75, main_v475, main_v476, main_cst_76, main_v477, main_v478, main_cst_77, main_v479, main_v480, main_v481, main_v482, main_v483, main_v484, main_v485, main_v486, main_v487, main_v488, main_v489, main_v490, main_v491]

theorem ch17_keep (r : Ref sig .tc) (h : r ∉ ch17_W) : after ch17 V (no_index (Proc.devRef .tc r)) = V (Proc.devRef .tc r) :=
  after_of_writes_sub ch17 V (by simp only [ch17, ch17a, ch17b, List.cons_append, List.nil_append, List.Forall, nullary_writes, unary_writes, binary_writes, ternary_writes, reshape_writes, TRef.nullary, TRef.unary, TRef.binary, TRef.ternary, Finset.singleton_subset_iff, List.mem_toFinset, List.mem_map_of_injective (Proc.devRef_injective (τ := τ) (sig := sig) .tc)]; (repeat' apply And.intro) <;> decide) h

theorem ch17_main_v491 : after ch17 V (no_index (Proc.devRef .tc main_v491)) = fn6 (F := F) (V (Proc.devRef .tc main_v380)) (V (Proc.devRef .tc main_v381)) (V (Proc.devRef .tc main_v382)) (V (Proc.devRef .tc main_v383)) (V (Proc.devRef .tc main_v455)) (V (Proc.devRef .tc main_v379)) := by
  simp only [ch17, ch17a, ch17b, List.cons_append, List.nil_append]
  after_results_simp
  try simp only [TRef.ofBuf, TRef.toBuf, cast_eq]
  rfl

-- The program's result: chunk after chunk, each output is its chunk's function of buffers no later chunk has overwritten.
theorem after_ops_result : after ops V (Proc.devRef .tc main_v491) = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  simp (disch := decide) only [ops, StableHlo.after_append, ch0_main_v0, ch0_main_v1, ch0_main_v2, ch0_main_v3, ch1_main_v39, ch2_main_v75, ch3_main_v111, ch4_main_v133, ch5_main_v134, ch5_main_v135, ch5_main_v136, ch5_main_v137, ch6_main_v173, ch7_main_v209, ch8_main_v245, ch9_main_v246, ch9_main_v247, ch9_main_v248, ch9_main_v249, ch10_main_v285, ch11_main_v321, ch12_main_v357, ch13_main_v379, ch14_main_v380, ch14_main_v381, ch14_main_v382, ch14_main_v383, ch15_main_v419, ch16_main_v455, ch17_main_v491, ch0_keep, ch1_keep, ch2_keep, ch3_keep, ch4_keep, ch5_keep, ch6_keep, ch7_keep, ch8_keep, ch9_keep, ch10_keep, ch11_keep, ch12_keep, ch13_keep, ch14_keep, ch15_keep, ch16_keep, ch17_keep]
  rfl

-- No operation writes an argument array.
theorem after_ops_args : after ops V (Proc.devRef .tc main_arg0) = V (Proc.devRef .tc main_arg0) ∧ after ops V (Proc.devRef .tc main_arg1) = V (Proc.devRef .tc main_arg1) ∧ after ops V (Proc.devRef .tc main_arg2) = V (Proc.devRef .tc main_arg2) ∧ after ops V (Proc.devRef .tc main_arg3) = V (Proc.devRef .tc main_arg3) ∧ after ops V (Proc.devRef .tc main_arg4) = V (Proc.devRef .tc main_arg4) ∧ after ops V (Proc.devRef .tc main_arg5) = V (Proc.devRef .tc main_arg5) ∧ after ops V (Proc.devRef .tc main_arg6) = V (Proc.devRef .tc main_arg6) := by
  simp (disch := decide) only [ops, StableHlo.after_append, ch0_keep, ch1_keep, ch2_keep, ch3_keep, ch4_keep, ch5_keep, ch6_keep, ch7_keep, ch8_keep, ch9_keep, ch10_keep, ch11_keep, ch12_keep, ch13_keep, ch14_keep, ch15_keep, ch16_keep, ch17_keep, and_self]

end Cert.ReferenceIdeal.RefRun

end
-- ==== Proof.RDeq.lean ====
import proofs.«416238_j53798760350388_3_alg».proof.Proof.RefFns
import proofs.«416238_j53798760350388_3_alg».proof.Proof.Deq
import Idealize.ShloMosaic.Lib.ValueIdx
import Idealize.ShloMosaic.Lib.Pipeline.Value

noncomputable section

namespace Cert.ReferenceIdeal.RRow

open Cert.ReferenceIdeal Cert.ReferenceIdeal.Gen Cert.ReferenceIdeal.RefRun Idealize.ShloMosaic Idealize.ShloMosaic.ValueIdx
open QNet (field deq)

variable {F : FTy → Type} [FloatOps F]

theorem widen_apply (x : IVec S8192x64 32) (g : Fin 8192) (w : Fin 64) (u : Fin 1) :
    broadcastInDim S8192x64x1 ![0, 1] bcast_S8192x64_S8192x64x1_0_1 x (ix3 g w u) = x (ix2 g w) :=
  broadcastInDim_apply _ _ x (ix3 g w u) (ix2 g w)
    (fun a => match a with | ⟨0, _⟩ => rfl | ⟨1, _⟩ => rfl)

theorem spread_apply (n2 : FVec F S8192x1 .f32) (g : Fin 8192) (p : Fin 128) :
    broadcastInDim S8192x128 ![0, 1] bcast_S8192x1_S8192x128_0_1 n2 (ix2 g p) = n2 (ix2 g 0) :=
  broadcastInDim_apply _ _ n2 (ix2 g p) (ix2 g 0)
    (fun a => match a with | ⟨0, _⟩ => rfl | ⟨1, _⟩ => rfl)

theorem fields_apply (q2 : IVec S8192x64 32) (g : Fin 8192) (w : Fin 64) (s : Fin 2) :
    concatenate S8192x64x2 2
        [⟨S8192x64x1, broadcastInDim S8192x64x1 ![0, 1] bcast_S8192x64_S8192x64x1_0_1
            (andi q2 (broadcastInDim S8192x64 ![] bcast_S_S8192x64 (constantI S_ 32 15#32)))⟩,
         ⟨S8192x64x1, broadcastInDim S8192x64x1 ![0, 1] bcast_S8192x64_S8192x64x1_0_1
            (andi (Host.shrsi q2 (broadcastInDim S8192x64 ![] bcast_S_S8192x64 (constantI S_ 32 4#32)))
              (broadcastInDim S8192x64 ![] bcast_S_S8192x64 (constantI S_ 32 15#32)))⟩]
        concatenates_S8192x64x1_S8192x64x1_S8192x64x2_d2 (ix3 g w s)
      = field (q2 (ix2 g w)) s := by
  unfold field
  by_cases hs : s.val = 0
  · rw [if_pos hs]
    refine (concatenate_pair_apply_left (t := S8192x64x2) (s₁ := S8192x64x1) (s₂ := S8192x64x1) 2 _ _
      concatenates_S8192x64x1_S8192x64x1_S8192x64x2_d2 (ix3 g w s) rfl (ix3 g w (0 : Fin 1))
      (fun b => match b with | ⟨0, _⟩ => rfl | ⟨1, _⟩ => rfl | ⟨2, _⟩ => hs.symm)).trans ?_
    exact (widen_apply _ g w 0).trans rfl
  · rw [if_neg hs]
    have hs1 : s.val = 1 := by omega
    refine (concatenate_pair_apply_right (t := S8192x64x2) (s₁ := S8192x64x1) (s₂ := S8192x64x1) 2 _ _
      concatenates_S8192x64x1_S8192x64x1_S8192x64x2_d2 (ix3 g w s) rfl rfl (ix3 g w (0 : Fin 1))
      (fun b => match b with
        | ⟨0, _⟩ => fun _ => rfl | ⟨1, _⟩ => fun _ => rfl
        | ⟨2, _⟩ => fun h => absurd rfl h)
      (by show 0 + 1 = s.val; omega)).trans ?_
    exact (widen_apply _ g w 0).trans rfl

-- Entry (o, i) of one layer's unpacked slab is the scalar dequantisation of its word, field and norm.
theorem dq2_apply (q2 : IVec S8192x64 32) (n2 : FVec F S8192x1 .f32) (o i : Fin 1024) :
    dq2 q2 n2 (ix2 o i)
      = deq (q2 (ix2 ⟨(o.val * 1024 + i.val) / 128, by omega⟩ ⟨(o.val * 1024 + i.val) % 128 / 2, by omega⟩))
          ⟨(o.val * 1024 + i.val) % 2, by omega⟩
          (n2 (ix2 ⟨(o.val * 1024 + i.val) / 128, by omega⟩ 0)) := by
  have hg : (o.val * 1024 + i.val) / 128 < 8192 := by omega
  have hp : (o.val * 1024 + i.val) % 128 < 128 := by omega
  have hw : (o.val * 1024 + i.val) % 128 / 2 < 64 := by omega
  have hs : (o.val * 1024 + i.val) % 2 < 2 := by omega
  unfold dq2 deq
  refine (shapeCast_apply _ _ (ix2 o i) (ix2 ⟨_, hg⟩ ⟨_, hp⟩) (by
    rw [Shape.rowMajor_val_two, Shape.rowMajor_val_two]
    show (o.val * 1024 + i.val) / 128 * 128 + (o.val * 1024 + i.val) % 128 = o.val * 1024 + i.val
    omega)).trans ?_
  refine congrArg₂ FloatOps.mulf (congrArg₂ FloatOps.subf (congrArg₂ FloatOps.mulf
    (congrArg₂ FloatOps.hostDivf (congrArg (FloatOps.sitofp .f32) ?_) rfl) rfl) rfl) ?_
  · refine (shapeCast_apply _ _ (ix2 ⟨_, hg⟩ ⟨_, hp⟩) (ix3 ⟨_, hg⟩ ⟨_, hw⟩ ⟨_, hs⟩) (by
      rw [Shape.rowMajor_val_three, Shape.rowMajor_val_two]
      show ((o.val * 1024 + i.val) / 128 * 64 + (o.val * 1024 + i.val) % 128 / 2) * 2 + (o.val * 1024 + i.val) % 2
        = (o.val * 1024 + i.val) / 128 * 128 + (o.val * 1024 + i.val) % 128
      omega)).trans ?_
    exact fields_apply q2 _ _ _
  · exact spread_apply n2 _ _

end Cert.ReferenceIdeal.RRow

end
-- ==== Proof.RRowLayer.lean ====
import proofs.«416238_j53798760350388_3_alg».proof.Proof.RefFns
import proofs.«416238_j53798760350388_3_alg».proof.Proof.Spec
import proofs.«416238_j53798760350388_3_alg».proof.Proof.Deq
import proofs.«416238_j53798760350388_3_alg».proof.Proof.RDeq
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RRow

open Cert.ReferenceIdeal Cert.ReferenceIdeal.Gen Cert.ReferenceIdeal.RefRun Idealize.ShloMosaic Idealize.ShloMosaic.ValueIdx
open scoped BigOperators

def wq (bq : IVec S3x8192x64 32) (bn : FVec Ideal S3x8192x1 .f32) (k : Fin 3) : QNet.Mat := fun o i =>
  QNet.deq (F := Ideal)
    (bq (ix3 k ⟨(o.val * 1024 + i.val) / 128, by omega⟩ ⟨(o.val * 1024 + i.val) % 128 / 2, by omega⟩))
    ⟨(o.val * 1024 + i.val) % 2, by omega⟩
    (bn (ix3 k ⟨(o.val * 1024 + i.val) / 128, by omega⟩ 0))

theorem dW_lhs_0 (i : S4096x1024.Idx) (q : dot_S4096x1024_S1024x1024_S4096x1024_1_0_0_1_n_n.contr.Idx) : (dot_S4096x1024_S1024x1024_S4096x1024_1_0_0_1_n_n.lhsIdx i q 0).val = (i 0).val := by
  unfold DotDims.lhsIdx
  rw [dif_neg (show ¬(0 : Fin S4096x1024.rank) ∈ dot_S4096x1024_S1024x1024_S4096x1024_1_0_0_1_n_n.lhsBatch by decide),
    dif_pos (show (0 : Fin S4096x1024.rank) ∈ dot_S4096x1024_S1024x1024_S4096x1024_1_0_0_1_n_n.lhsNonContracting by decide)]
  rfl
theorem dW_lhs_1 (i : S4096x1024.Idx) (q : dot_S4096x1024_S1024x1024_S4096x1024_1_0_0_1_n_n.contr.Idx) : (dot_S4096x1024_S1024x1024_S4096x1024_1_0_0_1_n_n.lhsIdx i q 1).val = (q ⟨0, by decide⟩).val :=
  dot_S4096x1024_S1024x1024_S4096x1024_1_0_0_1_n_n.lhsIdx_val_of_single rfl i q
theorem dW_rhs_0 (i : S4096x1024.Idx) (q : dot_S4096x1024_S1024x1024_S4096x1024_1_0_0_1_n_n.contr.Idx) : (dot_S4096x1024_S1024x1024_S4096x1024_1_0_0_1_n_n.rhsIdx i q 0).val = (q ⟨0, by decide⟩).val :=
  dot_S4096x1024_S1024x1024_S4096x1024_1_0_0_1_n_n.rhsIdx_val_of_single rfl i q
theorem dW_rhs_1 (i : S4096x1024.Idx) (q : dot_S4096x1024_S1024x1024_S4096x1024_1_0_0_1_n_n.contr.Idx) : (dot_S4096x1024_S1024x1024_S4096x1024_1_0_0_1_n_n.rhsIdx i q 1).val = (i 1).val := by
  unfold DotDims.rhsIdx
  rw [dif_neg (show ¬(1 : Fin S1024x1024.rank) ∈ dot_S4096x1024_S1024x1024_S4096x1024_1_0_0_1_n_n.rhsBatch by decide),
    dif_pos (show (1 : Fin S1024x1024.rank) ∈ dot_S4096x1024_S1024x1024_S4096x1024_1_0_0_1_n_n.rhsNonContracting by decide)]
  rfl

theorem dW_apply (l : FVec Ideal S4096x1024 .f32) (r : FVec Ideal S1024x1024 .f32) (n : Fin 4096) (q : Fin 1024) :
    Host.dotGeneral dot_S4096x1024_S1024x1024_S4096x1024_1_0_0_1_n_n none l r (ix2 n q) = ∑ i : Fin 1024, l (ix2 n i) * r (ix2 i q) := by
  simp only [Host.dotGeneral]
  rw [Ideal.dotGeneral_apply, ← Equiv.sum_comp (contrEquiv1 dot_S4096x1024_S1024x1024_S4096x1024_1_0_0_1_n_n 1024 rfl rfl).symm]
  refine Finset.sum_congr rfl fun k _ => ?_
  have hk := contrEquiv1_symm_val dot_S4096x1024_S1024x1024_S4096x1024_1_0_0_1_n_n 1024 rfl rfl k
  have el : dot_S4096x1024_S1024x1024_S4096x1024_1_0_0_1_n_n.lhsIdx (ix2 n q) ((contrEquiv1 dot_S4096x1024_S1024x1024_S4096x1024_1_0_0_1_n_n 1024 rfl rfl).symm k) = ix2 n k :=
    funext fun a => Fin.ext (by
      match a with
      | ⟨0, _⟩ => exact dW_lhs_0 _ _
      | ⟨1, _⟩ => exact (dW_lhs_1 _ _).trans hk)
  have er : dot_S4096x1024_S1024x1024_S4096x1024_1_0_0_1_n_n.rhsIdx (ix2 n q) ((contrEquiv1 dot_S4096x1024_S1024x1024_S4096x1024_1_0_0_1_n_n 1024 rfl rfl).symm k) = ix2 k q :=
    funext fun a => Fin.ext (by
      match a with
      | ⟨0, _⟩ => exact (dW_rhs_0 _ _).trans hk
      | ⟨1, _⟩ => exact dW_rhs_1 _ _)
  rw [el, er]

theorem dA_lhs_0 (i : S4096x4.Idx) (q : dot_S4096x1024_S1024x4_S4096x4_1_0_0_1_n_n.contr.Idx) : (dot_S4096x1024_S1024x4_S4096x4_1_0_0_1_n_n.lhsIdx i q 0).val = (i 0).val := by
  unfold DotDims.lhsIdx
  rw [dif_neg (show ¬(0 : Fin S4096x1024.rank) ∈ dot_S4096x1024_S1024x4_S4096x4_1_0_0_1_n_n.lhsBatch by decide),
    dif_pos (show (0 : Fin S4096x1024.rank) ∈ dot_S4096x1024_S1024x4_S4096x4_1_0_0_1_n_n.lhsNonContracting by decide)]
  rfl
theorem dA_lhs_1 (i : S4096x4.Idx) (q : dot_S4096x1024_S1024x4_S4096x4_1_0_0_1_n_n.contr.Idx) : (dot_S4096x1024_S1024x4_S4096x4_1_0_0_1_n_n.lhsIdx i q 1).val = (q ⟨0, by decide⟩).val :=
  dot_S4096x1024_S1024x4_S4096x4_1_0_0_1_n_n.lhsIdx_val_of_single rfl i q
theorem dA_rhs_0 (i : S4096x4.Idx) (q : dot_S4096x1024_S1024x4_S4096x4_1_0_0_1_n_n.contr.Idx) : (dot_S4096x1024_S1024x4_S4096x4_1_0_0_1_n_n.rhsIdx i q 0).val = (q ⟨0, by decide⟩).val :=
  dot_S4096x1024_S1024x4_S4096x4_1_0_0_1_n_n.rhsIdx_val_of_single rfl i q
theorem dA_rhs_1 (i : S4096x4.Idx) (q : dot_S4096x1024_S1024x4_S4096x4_1_0_0_1_n_n.contr.Idx) : (dot_S4096x1024_S1024x4_S4096x4_1_0_0_1_n_n.rhsIdx i q 1).val = (i 1).val := by
  unfold DotDims.rhsIdx
  rw [dif_neg (show ¬(1 : Fin S1024x4.rank) ∈ dot_S4096x1024_S1024x4_S4096x4_1_0_0_1_n_n.rhsBatch by decide),
    dif_pos (show (1 : Fin S1024x4.rank) ∈ dot_S4096x1024_S1024x4_S4096x4_1_0_0_1_n_n.rhsNonContracting by decide)]
  rfl

theorem dA_apply (l : FVec Ideal S4096x1024 .f32) (r : FVec Ideal S1024x4 .f32) (n : Fin 4096) (q : Fin 4) :
    Host.dotGeneral dot_S4096x1024_S1024x4_S4096x4_1_0_0_1_n_n none l r (ix2 n q) = ∑ i : Fin 1024, l (ix2 n i) * r (ix2 i q) := by
  simp only [Host.dotGeneral]
  rw [Ideal.dotGeneral_apply, ← Equiv.sum_comp (contrEquiv1 dot_S4096x1024_S1024x4_S4096x4_1_0_0_1_n_n 1024 rfl rfl).symm]
  refine Finset.sum_congr rfl fun k _ => ?_
  have hk := contrEquiv1_symm_val dot_S4096x1024_S1024x4_S4096x4_1_0_0_1_n_n 1024 rfl rfl k
  have el : dot_S4096x1024_S1024x4_S4096x4_1_0_0_1_n_n.lhsIdx (ix2 n q) ((contrEquiv1 dot_S4096x1024_S1024x4_S4096x4_1_0_0_1_n_n 1024 rfl rfl).symm k) = ix2 n k :=
    funext fun a => Fin.ext (by
      match a with
      | ⟨0, _⟩ => exact dA_lhs_0 _ _
      | ⟨1, _⟩ => exact (dA_lhs_1 _ _).trans hk)
  have er : dot_S4096x1024_S1024x4_S4096x4_1_0_0_1_n_n.rhsIdx (ix2 n q) ((contrEquiv1 dot_S4096x1024_S1024x4_S4096x4_1_0_0_1_n_n 1024 rfl rfl).symm k) = ix2 k q :=
    funext fun a => Fin.ext (by
      match a with
      | ⟨0, _⟩ => exact (dA_rhs_0 _ _).trans hk
      | ⟨1, _⟩ => exact dA_rhs_1 _ _)
  rw [el, er]

theorem dB_lhs_0 (i : S4096x1024.Idx) (q : dot_S4096x4_S4x1024_S4096x1024_1_0_0_1_n_n.contr.Idx) : (dot_S4096x4_S4x1024_S4096x1024_1_0_0_1_n_n.lhsIdx i q 0).val = (i 0).val := by
  unfold DotDims.lhsIdx
  rw [dif_neg (show ¬(0 : Fin S4096x4.rank) ∈ dot_S4096x4_S4x1024_S4096x1024_1_0_0_1_n_n.lhsBatch by decide),
    dif_pos (show (0 : Fin S4096x4.rank) ∈ dot_S4096x4_S4x1024_S4096x1024_1_0_0_1_n_n.lhsNonContracting by decide)]
  rfl
theorem dB_lhs_1 (i : S4096x1024.Idx) (q : dot_S4096x4_S4x1024_S4096x1024_1_0_0_1_n_n.contr.Idx) : (dot_S4096x4_S4x1024_S4096x1024_1_0_0_1_n_n.lhsIdx i q 1).val = (q ⟨0, by decide⟩).val :=
  dot_S4096x4_S4x1024_S4096x1024_1_0_0_1_n_n.lhsIdx_val_of_single rfl i q
theorem dB_rhs_0 (i : S4096x1024.Idx) (q : dot_S4096x4_S4x1024_S4096x1024_1_0_0_1_n_n.contr.Idx) : (dot_S4096x4_S4x1024_S4096x1024_1_0_0_1_n_n.rhsIdx i q 0).val = (q ⟨0, by decide⟩).val :=
  dot_S4096x4_S4x1024_S4096x1024_1_0_0_1_n_n.rhsIdx_val_of_single rfl i q
theorem dB_rhs_1 (i : S4096x1024.Idx) (q : dot_S4096x4_S4x1024_S4096x1024_1_0_0_1_n_n.contr.Idx) : (dot_S4096x4_S4x1024_S4096x1024_1_0_0_1_n_n.rhsIdx i q 1).val = (i 1).val := by
  unfold DotDims.rhsIdx
  rw [dif_neg (show ¬(1 : Fin S4x1024.rank) ∈ dot_S4096x4_S4x1024_S4096x1024_1_0_0_1_n_n.rhsBatch by decide),
    dif_pos (show (1 : Fin S4x1024.rank) ∈ dot_S4096x4_S4x1024_S4096x1024_1_0_0_1_n_n.rhsNonContracting by decide)]
  rfl

theorem dB_apply (l : FVec Ideal S4096x4 .f32) (r : FVec Ideal S4x1024 .f32) (n : Fin 4096) (q : Fin 1024) :
    Host.dotGeneral dot_S4096x4_S4x1024_S4096x1024_1_0_0_1_n_n none l r (ix2 n q) = ∑ i : Fin 4, l (ix2 n i) * r (ix2 i q) := by
  simp only [Host.dotGeneral]
  rw [Ideal.dotGeneral_apply, ← Equiv.sum_comp (contrEquiv1 dot_S4096x4_S4x1024_S4096x1024_1_0_0_1_n_n 4 rfl rfl).symm]
  refine Finset.sum_congr rfl fun k _ => ?_
  have hk := contrEquiv1_symm_val dot_S4096x4_S4x1024_S4096x1024_1_0_0_1_n_n 4 rfl rfl k
  have el : dot_S4096x4_S4x1024_S4096x1024_1_0_0_1_n_n.lhsIdx (ix2 n q) ((contrEquiv1 dot_S4096x4_S4x1024_S4096x1024_1_0_0_1_n_n 4 rfl rfl).symm k) = ix2 n k :=
    funext fun a => Fin.ext (by
      match a with
      | ⟨0, _⟩ => exact dB_lhs_0 _ _
      | ⟨1, _⟩ => exact (dB_lhs_1 _ _).trans hk)
  have er : dot_S4096x4_S4x1024_S4096x1024_1_0_0_1_n_n.rhsIdx (ix2 n q) ((contrEquiv1 dot_S4096x4_S4x1024_S4096x1024_1_0_0_1_n_n 4 rfl rfl).symm k) = ix2 k q :=
    funext fun a => Fin.ext (by
      match a with
      | ⟨0, _⟩ => exact (dB_rhs_0 _ _).trans hk
      | ⟨1, _⟩ => exact dB_rhs_1 _ _)
  rw [el, er]

theorem slab_apply {α : Type} {a b : ℕ} (k : Nat) (hk : k < 3) (x : (⟨3, ![3, a, b]⟩ : Shape).Idx → α)
    (hs : (⟨3, ![3, a, b]⟩ : Shape).Slices ![k, 0, 0] ⟨3, ![1, a, b]⟩)
    (hc : (⟨3, ![1, a, b]⟩ : Shape).ShapeCasts ⟨2, ![a, b]⟩) (r : Fin a) (m : Fin b) :
    shapeCast ⟨2, ![a, b]⟩ (extractStridedSlice ⟨3, ![1, a, b]⟩ ![k, 0, 0] x hs) hc (ix2 r m)
      = x (ix3 (⟨k, hk⟩ : Fin 3) r m) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem lay_apply (w : FVec Ideal S1024x1024 .f32) (a : FVec Ideal S4x1024 .f32) (b : FVec Ideal S1024x4 .f32)
    (h : FVec Ideal S4096x1024 .f32) (n : Fin 4096) (q : Fin 1024) :
    lay (F := Ideal) w a b h (ix2 n q)
      = QNet.linLR (fun o i => w (ix2 o i)) (fun r i => a (ix2 r i)) (fun o r => b (ix2 o r)) (fun i => h (ix2 n i)) q := by
  simp only [lay]
  show Host.dotGeneral dot_S4096x1024_S1024x1024_S4096x1024_1_0_0_1_n_n none h
        (transpose S1024x1024 [1, 0] w transposes_S1024x1024_S1024x1024_1_0) (ix2 n q)
      + Host.dotGeneral dot_S4096x4_S4x1024_S4096x1024_1_0_0_1_n_n none
        (Host.dotGeneral dot_S4096x1024_S1024x4_S4096x4_1_0_0_1_n_n none h (transpose S1024x4 [1, 0] a transposes_S4x1024_S1024x4_1_0))
        (transpose S4x1024 [1, 0] b transposes_S1024x4_S4x1024_1_0) (ix2 n q)
      = (∑ i : Fin 1024, h (ix2 n i) * w (ix2 q i)) + ∑ r : Fin 4, (∑ i : Fin 1024, h (ix2 n i) * a (ix2 r i)) * b (ix2 q r)
  rw [dW_apply, dB_apply]
  congr 1
  · refine Finset.sum_congr rfl fun i _ => ?_
    rw [transpose_ix2_apply]
  · refine Finset.sum_congr rfl fun r _ => ?_
    rw [dA_apply, transpose_ix2_apply]
    congr 1
    refine Finset.sum_congr rfl fun i _ => ?_
    rw [transpose_ix2_apply]

-- Slab K's layer at row n: the slab's unpacked words are the weight matrix, its two rank-4 factors the pair.
theorem lyr_apply (k : ℕ) (K : Fin 3) (hK : K.val = k) (hq : S3x8192x64.Slices ![k, 0, 0] S1x8192x64)
    (hn : S3x8192x1.Slices ![k, 0, 0] S1x8192x1) (ha : S3x4x1024.Slices ![k, 0, 0] S1x4x1024)
    (hb : S3x1024x4.Slices ![k, 0, 0] S1x1024x4) (bq : IVec S3x8192x64 32) (bn : FVec Ideal S3x8192x1 .f32) (ba : FVec Ideal S3x4x1024 .f32)
    (bb : FVec Ideal S3x1024x4 .f32) (h : FVec Ideal S4096x1024 .f32) (n : Fin 4096) (q : Fin 1024) :
    lyr (F := Ideal) k hq hn ha hb bq bn ba bb h (ix2 n q)
      = QNet.linLR (wq bq bn K) (fun r i => ba (ix3 K r i)) (fun o r => bb (ix3 K o r)) (fun i => h (ix2 n i)) q := by
  subst hK
  have eW : (fun o i => dq2 (F := Ideal) (shapeCast S8192x64 (extractStridedSlice S1x8192x64 ![K.val, 0, 0] bq hq) shapeCasts_S1x8192x64_S8192x64)
      (shapeCast S8192x1 (extractStridedSlice S1x8192x1 ![K.val, 0, 0] bn hn) shapeCasts_S1x8192x1_S8192x1) (ix2 o i)) = wq bq bn K := by
    funext o i
    rw [dq2_apply, slab_apply K.val K.isLt, slab_apply K.val K.isLt]
    rfl
  have eA : (fun r i => (shapeCast S4x1024 (extractStridedSlice S1x4x1024 ![K.val, 0, 0] ba ha) shapeCasts_S1x4x1024_S4x1024) (ix2 r i)) = fun r i => ba (ix3 K r i) :=
    funext fun r => funext fun i => slab_apply K.val K.isLt ba ha _ r i
  have eB : (fun o r => (shapeCast S1024x4 (extractStridedSlice S1x1024x4 ![K.val, 0, 0] bb hb) shapeCasts_S1x1024x4_S1024x4) (ix2 o r)) = fun o r => bb (ix3 K o r) :=
    funext fun o => funext fun r => slab_apply K.val K.isLt bb hb _ o r
  refine (lay_apply _ _ _ h n q).trans ?_
  rw [eW, eA, eB]

-- A block's first and second layers end in the rectifier, its third in the residual sum with the block's input.
theorem fn4_apply (bq : IVec S3x8192x64 32) (bn : FVec Ideal S3x8192x1 .f32) (ba : FVec Ideal S3x4x1024 .f32)
    (bb : FVec Ideal S3x1024x4 .f32) (h : FVec Ideal S4096x1024 .f32) (n : Fin 4096) (q : Fin 1024) :
    fn4 (F := Ideal) bq bn ba bb h (ix2 n q)
      = QNet.relu (QNet.linLR (wq bq bn 0) (fun r i => ba (ix3 0 r i)) (fun o r => bb (ix3 0 o r)) (fun i => h (ix2 n i))) q := by
  refine Eq.trans ?_ (congrArg (fun z => max z 0) (lyr_apply 0 0 rfl slices_S3x8192x64_S1x8192x64_0_0_0 slices_S3x8192x1_S1x8192x1_0_0_0 slices_S3x4x1024_S1x4x1024_0_0_0 slices_S3x1024x4_S1x1024x4_0_0_0 bq bn ba bb h n q))
  show max _ (Ideal.ofBits .f32 0x00000000#32) = max _ 0
  rw [Ideal.ofBits_zero_f32]

theorem fn5_apply (bq : IVec S3x8192x64 32) (bn : FVec Ideal S3x8192x1 .f32) (ba : FVec Ideal S3x4x1024 .f32)
    (bb : FVec Ideal S3x1024x4 .f32) (h : FVec Ideal S4096x1024 .f32) (n : Fin 4096) (q : Fin 1024) :
    fn5 (F := Ideal) bq bn ba bb h (ix2 n q)
      = QNet.relu (QNet.linLR (wq bq bn 1) (fun r i => ba (ix3 1 r i)) (fun o r => bb (ix3 1 o r)) (fun i => h (ix2 n i))) q := by
  refine Eq.trans ?_ (congrArg (fun z => max z 0) (lyr_apply 1 1 rfl slices_S3x8192x64_S1x8192x64_1_0_0 slices_S3x8192x1_S1x8192x1_1_0_0 slices_S3x4x1024_S1x4x1024_1_0_0 slices_S3x1024x4_S1x1024x4_1_0_0 bq bn ba bb h n q))
  show max _ (Ideal.ofBits .f32 0x00000000#32) = max _ 0
  rw [Ideal.ofBits_zero_f32]

theorem fn6_apply (bq : IVec S3x8192x64 32) (bn : FVec Ideal S3x8192x1 .f32) (ba : FVec Ideal S3x4x1024 .f32)
    (bb : FVec Ideal S3x1024x4 .f32) (h x : FVec Ideal S4096x1024 .f32) (n : Fin 4096) (q : Fin 1024) :
    fn6 (F := Ideal) bq bn ba bb h x (ix2 n q)
      = QNet.radd (QNet.linLR (wq bq bn 2) (fun r i => ba (ix3 2 r i)) (fun o r => bb (ix3 2 o r)) (fun i => h (ix2 n i)))
          (fun i => x (ix2 n i)) q :=
  congrArg (fun z => z + x (ix2 n q)) (lyr_apply 2 2 rfl slices_S3x8192x64_S1x8192x64_2_0_0 slices_S3x8192x1_S1x8192x1_2_0_0 slices_S3x4x1024_S1x4x1024_2_0_0 slices_S3x1024x4_S1x1024x4_2_0_0 bq bn ba bb h n q)

end Cert.ReferenceIdeal.RRow

end
-- ==== Proof.RRow.lean ====
import proofs.«416238_j53798760350388_3_alg».proof.Proof.RRowLayer
import Idealize.ShloMosaic.Lib.IdealHost

noncomputable section

namespace Cert.ReferenceIdeal.RRow

open Cert.ReferenceIdeal Cert.ReferenceIdeal.Gen Cert.ReferenceIdeal.RefRun Idealize.ShloMosaic Idealize.ShloMosaic.ValueIdx
open scoped BigOperators

def wqAll (a1 : IVec S12x8192x64 32) (a2 : FVec Ideal S12x8192x1 .f32) : Fin 12 → QNet.Mat := fun l o i =>
  QNet.deq (F := Ideal)
    (a1 (ix3 l ⟨(o.val * 1024 + i.val) / 128, by omega⟩ ⟨(o.val * 1024 + i.val) % 128 / 2, by omega⟩))
    ⟨(o.val * 1024 + i.val) % 2, by omega⟩
    (a2 (ix3 l ⟨(o.val * 1024 + i.val) / 128, by omega⟩ 0))

private theorem rr_red1 : S4096x1024.Reduces [1] S4096 := by decide

private theorem rr_rowSum_apply (x : FVec Ideal S4096x1024 .f32) (n : Fin 4096) :
    Host.reduceAdd x (constant (F := Ideal) S_ .f32 0x00000000#32) reducesTo_S4096x1024_S4096_d1 h_S_ (ix1 n)
      = ∑ k : Fin 1024, x (ix2 n k) := by
  refine (hostReduceAdd_apply x _ reducesTo_S4096x1024_S4096_d1 h_S_ (ix1 n)).trans ?_
  refine (Ideal.hostReduceAdd_single reducesTo_S4096x1024_S4096_d1 rr_red1 x _ (ix1 n)).trans ?_
  rw [constant_apply, Ideal.ofBits_zero_f32, zero_add]
  refine Finset.sum_congr rfl fun k _ => congrArg x ?_
  funext a
  match a with
  | ⟨0, _⟩ => rfl
  | ⟨1, _⟩ => rfl

section Layout
variable {α : Type}

private theorem rr_bcastCol_apply (x : S4096.Idx → α) (n : Fin 4096) (u : Fin 1) :
    broadcastInDim S4096x1 ![0] bcast_S4096_S4096x1_0 x (ix2 n u) = x (ix1 n) :=
  broadcastInDim_apply _ _ x _ _ (fun a => by
    match a with
    | ⟨0, _⟩ => rfl)

private theorem rr_bcastRow_apply (x : S4096x1.Idx → α) (n : Fin 4096) (q : Fin 1024) :
    broadcastInDim S4096x1024 ![0, 1] bcast_S4096x1_S4096x1024_0_1 x (ix2 n q) = x (ix2 n 0) :=
  broadcastInDim_apply _ _ x _ _ (fun a => by
    match a with
    | ⟨0, _⟩ => rfl
    | ⟨1, _⟩ => rfl)

private theorem rr_bcastG1_apply (x : S1024.Idx → α) (u : Fin 1) (q : Fin 1024) :
    broadcastInDim S1x1024 ![1] bcast_S1024_S1x1024_1 x (ix2 u q) = x (ix1 q) :=
  broadcastInDim_apply _ _ x _ _ (fun a => by
    match a with
    | ⟨0, _⟩ => rfl)

private theorem rr_bcastG2_apply (x : S1x1024.Idx → α) (n : Fin 4096) (q : Fin 1024) :
    broadcastInDim S4096x1024 ![0, 1] bcast_S1x1024_S4096x1024_0_1 x (ix2 n q) = x (ix2 0 q) :=
  broadcastInDim_apply _ _ x _ _ (fun a => by
    match a with
    | ⟨0, _⟩ => rfl
    | ⟨1, _⟩ => rfl)

private theorem rr_bcastS_apply (x : S_.Idx → α) (j : S4096x1.Idx) :
    broadcastInDim S4096x1 ![] bcast_S_S4096x1 x j = x ix0 :=
  broadcastInDim_scalar_apply _ x j

private theorem rr_castRow_apply (x : S1x1024.Idx → α) (q : Fin 1024) :
    shapeCast S1024 x shapeCasts_S1x1024_S1024 (ix1 q) = x (ix2 0 q) :=
  shapeCast_1a_a_apply x _ q

private theorem rr_sliceRow_apply (k : ℕ) (K : Fin 2) (hK : K.val = k) (x : S2x1024.Idx → α) (hs : S2x1024.Slices ![k, 0] S1x1024)
    (u : Fin 1) (q : Fin 1024) : extractStridedSlice S1x1024 ![k, 0] x hs (ix2 u q) = x (ix2 K q) :=
  slice2_axis0_apply k x hs u q K (by have := u.isLt; omega)

end Layout

private theorem rr_hostRsqrt_apply {s : Shape} (x : FVec Ideal s .f32) (i : s.Idx) : Host.rsqrt x i = Ideal.rsqrt (x i) := rfl

private theorem rr_c1024_real : QNet.c1024 = ((1024 : ℝ) : EReal) := by
  simp [QNet.c1024, Ideal.ofBits, Ideal.ieee, -EReal.coe_mul]; norm_num

private theorem rr_divisor_apply :
    (subf (constant (F := Ideal) S_ .f32 0x44800000#32) (sitofp .f32 (constantI S_ 32 0#32)) : FVec Ideal S_ .f32) ix0
      = QNet.c1024 := by
  rw [subf_apply, constant_apply, sitofp_apply, constantI_apply]
  show Ideal.ofBits .f32 0x44800000#32 - (((0#32 : BitVec 32).toInt : ℝ) : EReal) = QNet.c1024
  simp [QNet.c1024]

private theorem rr_guard_apply :
    cmpf (F := Ideal) .ogt (subf (constant (F := Ideal) S_ .f32 0x44800000#32) (sitofp .f32 (constantI S_ 32 0#32)))
      (constant (F := Ideal) S_ .f32 0x00000000#32) ix0 = 1#1 := by
  rw [cmpf_apply, rr_divisor_apply, constant_apply, Ideal.ofBits_zero_f32, rr_c1024_real]
  show Ideal.cmp .ogt ((1024 : ℝ) : EReal) 0 = 1#1
  have : (0 : EReal) < ((1024 : ℝ) : EReal) := by exact_mod_cast (by norm_num : (0 : ℝ) < 1024)
  simp [Ideal.cmp, this]

private theorem rr_meanCol_apply (h : FVec Ideal S4096x1024 .f32) (n : Fin 4096) (u : Fin 1) :
    Host.divf (broadcastInDim S4096x1 ![0] bcast_S4096_S4096x1_0
        (Host.reduceAdd h (constant (F := Ideal) S_ .f32 0x00000000#32) reducesTo_S4096x1024_S4096_d1 h_S_))
      (broadcastInDim S4096x1 ![] bcast_S_S4096x1 (constant (F := Ideal) S_ .f32 0x44800000#32)) (ix2 n u)
      = QNet.mean (fun i => h (ix2 n i)) := by
  rw [hostDivf_apply, rr_bcastCol_apply, rr_bcastS_apply, rr_rowSum_apply, constant_apply]
  rfl

private theorem rr_varCol_apply (h : FVec Ideal S4096x1024 .f32) (n : Fin 4096) (u : Fin 1) :
    Host.divf (broadcastInDim S4096x1 ![0] bcast_S4096_S4096x1_0
        (Host.reduceAdd
          (mulf
            (subf h (broadcastInDim S4096x1024 ![0, 1] bcast_S4096x1_S4096x1024_0_1
              (Host.divf (broadcastInDim S4096x1 ![0] bcast_S4096_S4096x1_0
                  (Host.reduceAdd h (constant (F := Ideal) S_ .f32 0x00000000#32) reducesTo_S4096x1024_S4096_d1 h_S_))
                (broadcastInDim S4096x1 ![] bcast_S_S4096x1 (constant (F := Ideal) S_ .f32 0x44800000#32)))))
            (subf h (broadcastInDim S4096x1024 ![0, 1] bcast_S4096x1_S4096x1024_0_1
              (Host.divf (broadcastInDim S4096x1 ![0] bcast_S4096_S4096x1_0
                  (Host.reduceAdd h (constant (F := Ideal) S_ .f32 0x00000000#32) reducesTo_S4096x1024_S4096_d1 h_S_))
                (broadcastInDim S4096x1 ![] bcast_S_S4096x1 (constant (F := Ideal) S_ .f32 0x44800000#32))))))
          (constant (F := Ideal) S_ .f32 0x00000000#32) reducesTo_S4096x1024_S4096_d1 h_S_))
      (broadcastInDim S4096x1 ![] bcast_S_S4096x1
        (subf (constant (F := Ideal) S_ .f32 0x44800000#32) (sitofp .f32 (constantI S_ 32 0#32)))) (ix2 n u)
      = QNet.var (fun i => h (ix2 n i)) := by
  rw [hostDivf_apply, rr_bcastCol_apply, rr_bcastS_apply, rr_rowSum_apply, rr_divisor_apply]
  unfold QNet.var
  refine congrArg (fun z => Ideal.div z QNet.c1024) (Finset.sum_congr rfl fun k _ => ?_)
  rw [mulf_apply, subf_apply, rr_bcastRow_apply, rr_meanCol_apply]

-- Row n of the normalised array is the normalisation of row n: the guard 1024 − 0 > 0 holds, and the divisor 1024 − 0 is the row length.
theorem lnorm_apply (k : ℕ) (K : Fin 2) (hK : K.val = k) (hs : S2x1024.Slices ![k, 0] S1x1024) (g b : FVec Ideal S2x1024 .f32)
    (h : FVec Ideal S4096x1024 .f32) (n : Fin 4096) (q : Fin 1024) :
    lnorm (F := Ideal) k hs g b h (ix2 n q)
      = QNet.ln (fun j => g (ix2 K j)) (fun j => b (ix2 K j)) (fun i => h (ix2 n i)) q := by
  unfold lnorm
  simp only [addf_apply, mulf_apply, subf_apply]
  rw [rr_bcastG2_apply, rr_bcastG1_apply, rr_castRow_apply, rr_sliceRow_apply k K hK]
  rw [rr_bcastG2_apply, rr_bcastG1_apply, rr_castRow_apply, rr_sliceRow_apply k K hK]
  rw [rr_bcastRow_apply, rr_bcastRow_apply, rr_meanCol_apply, rr_hostRsqrt_apply, addf_apply, select_apply, rr_bcastS_apply, rr_bcastS_apply,
    rr_bcastS_apply, rr_guard_apply, select_one, rr_varCol_apply, constant_apply]
  rfl

private def rr_lyr (a1 : IVec S12x8192x64 32) (a2 : FVec Ideal S12x8192x1 .f32) (a3 : FVec Ideal S12x4x1024 .f32)
    (a4 : FVec Ideal S12x1024x4 .f32) (l : Fin 12) : QNet.Row → QNet.Row :=
  QNet.linLR (wqAll a1 a2 l) (fun r i => a3 (ix3 l r i)) (fun o r => a4 (ix3 l o r))

private theorem rr_slab_apply {α : Type} {n1 n2 : Nat} (o : Nat) (X : (⟨3, ![12, n1, n2]⟩ : Shape).Idx → α)
    (h : (⟨3, ![12, n1, n2]⟩ : Shape).Slices ![o, 0, 0] ⟨3, ![3, n1, n2]⟩) (k : Fin 3) (a : Fin n1) (c : Fin n2)
    (K : Fin 12) (hK : K.val = o + k.val) :
    extractStridedSlice ⟨3, ![3, n1, n2]⟩ ![o, 0, 0] X h (ix3 k a c) = X (ix3 K a c) :=
  extractStridedSlice_apply _ _ _ _ _ (fun ax => by
    match ax with
    | ⟨0, _⟩ => exact hK
    | ⟨1, _⟩ => exact (Nat.zero_add _).symm
    | ⟨2, _⟩ => exact (Nat.zero_add _).symm)

private theorem rr_wq_slab (o : Nat) (hq : S12x8192x64.Slices ![o, 0, 0] S3x8192x64) (hn : S12x8192x1.Slices ![o, 0, 0] S3x8192x1)
    (a1 : IVec S12x8192x64 32) (a2 : FVec Ideal S12x8192x1 .f32) (k : Fin 3) (K : Fin 12) (hK : K.val = o + k.val) :
    wq (extractStridedSlice S3x8192x64 ![o, 0, 0] a1 hq) (extractStridedSlice S3x8192x1 ![o, 0, 0] a2 hn) k
      = wqAll a1 a2 K := by
  funext oo i
  unfold wq wqAll
  rw [rr_slab_apply o a1 hq k _ _ K hK, rr_slab_apply o a2 hn k _ _ K hK]

private theorem rr_lyr_slab (o : Nat) (hq : S12x8192x64.Slices ![o, 0, 0] S3x8192x64) (hn : S12x8192x1.Slices ![o, 0, 0] S3x8192x1)
    (ha : S12x4x1024.Slices ![o, 0, 0] S3x4x1024) (hb : S12x1024x4.Slices ![o, 0, 0] S3x1024x4)
    (a1 : IVec S12x8192x64 32) (a2 : FVec Ideal S12x8192x1 .f32) (a3 : FVec Ideal S12x4x1024 .f32)
    (a4 : FVec Ideal S12x1024x4 .f32) (k : Fin 3) (K : Fin 12) (hK : K.val = o + k.val) :
    QNet.linLR (wq (extractStridedSlice S3x8192x64 ![o, 0, 0] a1 hq) (extractStridedSlice S3x8192x1 ![o, 0, 0] a2 hn) k)
        (fun r i => extractStridedSlice S3x4x1024 ![o, 0, 0] a3 ha (ix3 k r i))
        (fun oo r => extractStridedSlice S3x1024x4 ![o, 0, 0] a4 hb (ix3 k oo r))
      = rr_lyr a1 a2 a3 a4 K := by
  unfold rr_lyr
  rw [rr_wq_slab o hq hn a1 a2 k K hK]
  congr 1
  · funext r i; exact rr_slab_apply o a3 ha k r i K hK
  · funext oo r; exact rr_slab_apply o a4 hb k oo r K hK

private theorem rr_blockRow (bq : IVec S3x8192x64 32) (bn : FVec Ideal S3x8192x1 .f32) (ba : FVec Ideal S3x4x1024 .f32)
    (bb : FVec Ideal S3x1024x4 .f32) (X : FVec Ideal S4096x1024 .f32) (n : Fin 4096) :
    (fun q => blk (F := Ideal) bq bn ba bb X (ix2 n q))
      = QNet.block
          (QNet.linLR (wq bq bn 0) (fun r i => ba (ix3 0 r i)) (fun o r => bb (ix3 0 o r)))
          (QNet.linLR (wq bq bn 1) (fun r i => ba (ix3 1 r i)) (fun o r => bb (ix3 1 o r)))
          (QNet.linLR (wq bq bn 2) (fun r i => ba (ix3 2 r i)) (fun o r => bb (ix3 2 o r)))
          (fun i => X (ix2 n i)) := by
  have e4 : (fun i => fn4 (F := Ideal) bq bn ba bb X (ix2 n i))
      = QNet.relu (QNet.linLR (wq bq bn 0) (fun r i => ba (ix3 0 r i)) (fun o r => bb (ix3 0 o r)) (fun i => X (ix2 n i))) :=
    funext fun i => fn4_apply bq bn ba bb X n i
  have e5 : (fun i => fn5 (F := Ideal) bq bn ba bb (fn4 (F := Ideal) bq bn ba bb X) (ix2 n i))
      = QNet.relu (QNet.linLR (wq bq bn 1) (fun r i => ba (ix3 1 r i)) (fun o r => bb (ix3 1 o r))
          (QNet.relu (QNet.linLR (wq bq bn 0) (fun r i => ba (ix3 0 r i)) (fun o r => bb (ix3 0 o r)) (fun i => X (ix2 n i))))) := by
    funext i
    rw [fn5_apply, e4]
  funext q
  unfold blk
  rw [fn6_apply, e5]
  rfl

-- A block over the cut at layer o, on a row R: the block of layers o, o + 1, o + 2 on R.
private theorem rr_blockStep (o : Nat) (hq : S12x8192x64.Slices ![o, 0, 0] S3x8192x64) (hn : S12x8192x1.Slices ![o, 0, 0] S3x8192x1)
    (ha : S12x4x1024.Slices ![o, 0, 0] S3x4x1024) (hb : S12x1024x4.Slices ![o, 0, 0] S3x1024x4)
    (a1 : IVec S12x8192x64 32) (a2 : FVec Ideal S12x8192x1 .f32) (a3 : FVec Ideal S12x4x1024 .f32)
    (a4 : FVec Ideal S12x1024x4 .f32) (X : FVec Ideal S4096x1024 .f32) (n : Fin 4096)
    (K0 K1 K2 : Fin 12) (h0 : K0.val = o + (0 : Fin 3).val) (h1 : K1.val = o + (1 : Fin 3).val) (h2 : K2.val = o + (2 : Fin 3).val)
    (R : QNet.Row) (hX : (fun i => X (ix2 n i)) = R) :
    (fun q => blk (F := Ideal) (extractStridedSlice S3x8192x64 ![o, 0, 0] a1 hq) (extractStridedSlice S3x8192x1 ![o, 0, 0] a2 hn)
        (extractStridedSlice S3x4x1024 ![o, 0, 0] a3 ha) (extractStridedSlice S3x1024x4 ![o, 0, 0] a4 hb) X (ix2 n q))
      = QNet.block (rr_lyr a1 a2 a3 a4 K0) (rr_lyr a1 a2 a3 a4 K1) (rr_lyr a1 a2 a3 a4 K2) R := by
  rw [rr_blockRow, rr_lyr_slab o hq hn ha hb a1 a2 a3 a4 0 K0 h0, rr_lyr_slab o hq hn ha hb a1 a2 a3 a4 1 K1 h1,
    rr_lyr_slab o hq hn ha hb a1 a2 a3 a4 2 K2 h2, hX]

-- A normalisation on a row R.
private theorem rr_lnStep (k : ℕ) (K : Fin 2) (hK : K.val = k) (hs : S2x1024.Slices ![k, 0] S1x1024) (g b : FVec Ideal S2x1024 .f32)
    (X : FVec Ideal S4096x1024 .f32) (n : Fin 4096) (R : QNet.Row) (hX : (fun i => X (ix2 n i)) = R) :
    (fun q => lnorm (F := Ideal) k hs g b X (ix2 n q)) = QNet.ln (fun j => g (ix2 K j)) (fun j => b (ix2 K j)) R := by
  funext q
  rw [lnorm_apply k K hK, hX]

-- Every chunk acts on each row by itself, so row n of the result is the network of row n of the input.
theorem refNet_apply (a0 : FVec Ideal S4096x1024 .f32) (a1 : IVec S12x8192x64 32) (a2 : FVec Ideal S12x8192x1 .f32)
    (a3 : FVec Ideal S12x4x1024 .f32) (a4 : FVec Ideal S12x1024x4 .f32) (a5 a6 : FVec Ideal S2x1024 .f32)
    (n : Fin 4096) (q : Fin 1024) :
    refNet (F := Ideal) a0 a1 a2 a3 a4 a5 a6 (ix2 n q)
      = QNet.netR (wqAll a1 a2) (fun l r i => a3 (ix3 l r i)) (fun l o r => a4 (ix3 l o r))
          (fun k j => a5 (ix2 k j)) (fun k j => a6 (ix2 k j)) (fun i => a0 (ix2 n i)) q := by
  have r1 := rr_blockStep 0 slices_S12x8192x64_S3x8192x64_0_0_0 slices_S12x8192x1_S3x8192x1_0_0_0 slices_S12x4x1024_S3x4x1024_0_0_0
      slices_S12x1024x4_S3x1024x4_0_0_0 a1 a2 a3 a4 a0 n 0 1 2 rfl rfl rfl _ rfl
  have r2 := rr_lnStep 0 0 rfl slices_S2x1024_S1x1024_0_0 a5 a6 _ n _ r1
  have r3 := rr_blockStep 3 slices_S12x8192x64_S3x8192x64_3_0_0 slices_S12x8192x1_S3x8192x1_3_0_0 slices_S12x4x1024_S3x4x1024_3_0_0
      slices_S12x1024x4_S3x1024x4_3_0_0 a1 a2 a3 a4 _ n 3 4 5 rfl rfl rfl _ r2
  have r4 := rr_blockStep 6 slices_S12x8192x64_S3x8192x64_6_0_0 slices_S12x8192x1_S3x8192x1_6_0_0 slices_S12x4x1024_S3x4x1024_6_0_0
      slices_S12x1024x4_S3x1024x4_6_0_0 a1 a2 a3 a4 _ n 6 7 8 rfl rfl rfl _ r3
  have r5 := rr_lnStep 1 1 rfl slices_S2x1024_S1x1024_1_0 a5 a6 _ n _ r4
  have r6 := rr_blockStep 9 slices_S12x8192x64_S3x8192x64_9_0_0 slices_S12x8192x1_S3x8192x1_9_0_0 slices_S12x4x1024_S3x4x1024_9_0_0
      slices_S12x1024x4_S3x1024x4_9_0_0 a1 a2 a3 a4 _ n 9 10 11 rfl rfl rfl _ r5
  exact congrFun r6 q

end Cert.ReferenceIdeal.RRow

end
-- ==== Proof.lean ====
import proofs.«416238_j53798760350388_3_alg».proof.Defs
import proofs.«416238_j53798760350388_3_alg».proof.Proof.Gen.Kernel
import proofs.«416238_j53798760350388_3_alg».proof.Proof.Gen.Kernel.Frame
import proofs.«416238_j53798760350388_3_alg».proof.Proof.Gen.KernelIdeal
import proofs.«416238_j53798760350388_3_alg».proof.Proof.Gen.KernelIdeal.Frame
import proofs.«416238_j53798760350388_3_alg».proof.Proof.Gen.KernelIdeal.Value
import proofs.«416238_j53798760350388_3_alg».proof.Proof.Gen.ReferenceIdeal
import proofs.«416238_j53798760350388_3_alg».proof.Proof.Gen.Pre_finite_inputs
import proofs.«416238_j53798760350388_3_alg».proof.Proof.Spec
import proofs.«416238_j53798760350388_3_alg».proof.Proof.PreReal
import proofs.«416238_j53798760350388_3_alg».proof.Proof.KRow
import proofs.«416238_j53798760350388_3_alg».proof.Proof.KHost
import proofs.«416238_j53798760350388_3_alg».proof.Proof.KFinal
import proofs.«416238_j53798760350388_3_alg».proof.Proof.RefOps
import proofs.«416238_j53798760350388_3_alg».proof.Proof.RefMain
import proofs.«416238_j53798760350388_3_alg».proof.Proof.RefVal
import proofs.«416238_j53798760350388_3_alg».proof.Proof.RRow
import Idealize.ShloMosaic.Adequacy
import Idealize.ShloMosaic.Init

noncomputable section

namespace Cert.Proof

open Idealize.ShloMosaic Idealize.ShloMosaic.ValueIdx Idealize.ShloMosaic.TcCoe Idealize.SL.Sem Idealize.ShloMosaic.StableHlo

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

-- The reference runs its operations in order, and none of them writes an argument array.
theorem frame_ri : Cert.frame_ReferenceIdeal := fun m ρ _ =>
  (θ_run Cert.ReferenceIdeal.defs _ _).mono (fun r h c =>
    have a := Cert.ReferenceIdeal.RefRun.after_ops_args (launchContents m c)
    ⟨(h c _).trans a.1, (h c _).trans a.2.1, (h c _).trans a.2.2.1, (h c _).trans a.2.2.2.1, (h c _).trans a.2.2.2.2.1, (h c _).trans a.2.2.2.2.2.1, (h c _).trans a.2.2.2.2.2.2⟩)
    (Cert.ReferenceIdeal.RefRun.run_main (F := Ideal) m ρ)

-- The twelve weight matrices the quantised words and norms stand for.
def Wd (m : (ℓ : Loc Cert.KernelIdeal.nD Cert.KernelIdeal.τ Cert.KernelIdeal.sig) → Buf (Elt Ideal) ℓ)
    (c : Dev Cert.KernelIdeal.nD) : Fin 12 → QNet.Mat := fun l o i =>
  Cert.KernelIdeal.KHost.dq3 (F := Ideal)
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (ix3 l o i)

-- Each result row is the network of the input's row: with the folded weights on one side, with the rank-4 pair apart on the other; equal on real inputs.
theorem algebraic : Cert.algebraic_KernelIdeal_ReferenceIdeal := by
  intro m ρ m' ρ' hpre hagree
  refine ⟨fun c => (Cert.KernelIdeal.Gen.dats m 0 c).arrAt 4 Cert.KernelIdeal.cfg0.N,
    Cert.KernelIdeal.Value.run_blocks (F := Ideal) m ρ, ?_⟩
  refine (θ_run Cert.ReferenceIdeal.defs _ _).mono (fun r h c =>
    have a := Cert.ReferenceIdeal.RefRun.after_ops_args (launchContents m' c)
    ⟨?_, (h c _).trans a.1, (h c _).trans a.2.1, (h c _).trans a.2.2.1, (h c _).trans a.2.2.2.1, (h c _).trans a.2.2.2.2.1, (h c _).trans a.2.2.2.2.2.1, (h c _).trans a.2.2.2.2.2.2⟩)
    (Cert.ReferenceIdeal.RefRun.run_main (F := Ideal) m' ρ')
  refine (h c Cert.ReferenceIdeal.main_v491).trans ?_
  obtain ⟨hr0, hr2, hr3, hr4, hr5, hr6⟩ := Cert.PreReal.isR_of_fn _ _ _ _ _ _ _ (hpre c)
  obtain ⟨e0, e1, e2, e3, e4, e5, e6⟩ := hagree c
  funext j
  obtain ⟨n, q, rfl⟩ : ∃ (n : Fin 4096) (q : Fin 1024), j = ix2 n q := ⟨j 0, j 1, eq_ix2 j⟩
  have hk := Cert.KernelIdeal.KFinal.arr_apply_of m (Wd m) Cert.KernelIdeal.KRow.out0_4_apply
    (fun c l o i => Cert.KernelIdeal.KHost.V_main_v22_apply m c l o i) c n q
  have hrf := (congrFun (Cert.ReferenceIdeal.RefRun.after_ops_result (F := Ideal) (launchContents m' c)) (ix2 n q)).trans
    (Cert.ReferenceIdeal.RRow.refNet_apply _ _ _ _ _ _ _ n q)
  refine hrf.trans ?_
  refine Eq.trans ?_ hk.symm
  have e0' : launchContents m' c (Proc.devRef .tc Cert.ReferenceIdeal.main_arg0) = m ((c.tc : Thread Cert.KernelIdeal.nD Cert.KernelIdeal.τ).loc Cert.KernelIdeal.main_arg0) := e0
  have e1' : launchContents m' c (Proc.devRef .tc Cert.ReferenceIdeal.main_arg1) = m ((c.tc : Thread Cert.KernelIdeal.nD Cert.KernelIdeal.τ).loc Cert.KernelIdeal.main_arg1) := e1
  have e2' : launchContents m' c (Proc.devRef .tc Cert.ReferenceIdeal.main_arg2) = m ((c.tc : Thread Cert.KernelIdeal.nD Cert.KernelIdeal.τ).loc Cert.KernelIdeal.main_arg2) := e2
  have e3' : launchContents m' c (Proc.devRef .tc Cert.ReferenceIdeal.main_arg3) = m ((c.tc : Thread Cert.KernelIdeal.nD Cert.KernelIdeal.τ).loc Cert.KernelIdeal.main_arg3) := e3
  have e4' : launchContents m' c (Proc.devRef .tc Cert.ReferenceIdeal.main_arg4) = m ((c.tc : Thread Cert.KernelIdeal.nD Cert.KernelIdeal.τ).loc Cert.KernelIdeal.main_arg4) := e4
  have e5' : launchContents m' c (Proc.devRef .tc Cert.ReferenceIdeal.main_arg5) = m ((c.tc : Thread Cert.KernelIdeal.nD Cert.KernelIdeal.τ).loc Cert.KernelIdeal.main_arg5) := e5
  have e6' : launchContents m' c (Proc.devRef .tc Cert.ReferenceIdeal.main_arg6) = m ((c.tc : Thread Cert.KernelIdeal.nD Cert.KernelIdeal.τ).loc Cert.KernelIdeal.main_arg6) := e6
  rw [e0', e1', e2', e3', e4', e5', e6']
  have hW : Cert.ReferenceIdeal.RRow.wqAll
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = Wd m c := by
    funext l o i
    exact (Cert.KernelIdeal.KHost.dq3_apply (F := Ideal) _ _ l o i).symm
  rw [hW]
  refine (congrFun (QNet.netK_eq_netR (Wd m c) _ _ _ _ _ ?_ ?_ ?_ ?_ ?_ ?_) q).symm
  · intro l o i; exact Cert.KernelIdeal.KHost.dq3_isR _ _ hr2 _
  · intro l r i; exact hr3 _
  · intro l o r; exact hr4 _
  · intro k i; exact hr5 _
  · intro k i; exact hr6 _
  · intro i; exact hr0 _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
